-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128 .f32) (main_arg10 : FVec F S128x2 .f32) (main_arg11 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg10
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S128x64 .f32) (main_arg7 : FVec F S64 .f32) (main_arg8 : FVec F S64x128 .f32) (main_arg9 : FVec F S128 .f32) (main_arg10 : FVec F S128x2 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x1600000 32) (main_arg2 : FVec F S1600000 .f32) (main_arg3 : IVec S50000 32) (main_arg4 : FVec F S128x128 .f32) (main_arg5 : FVec F S128 .f32) (main_arg6 : FVec F S128x64 .f32) (main_arg7 : FVec F S64 .f32) (main_arg8 : FVec F S64x128 .f32) (main_arg9 : FVec F S128 .f32) (main_arg10 : FVec F S128x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x2 : Shape := ⟨2, ![128, 2]⟩
abbrev S2 : Shape := ⟨1, ![2]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩
abbrev S50000x1 : Shape := ⟨2, ![50000, 1]⟩
abbrev S64x64 : Shape := ⟨2, ![64, 64]⟩
abbrev S5000x1 : Shape := ⟨2, ![5000, 1]⟩
abbrev S64x1 : Shape := ⟨2, ![64, 1]⟩
abbrev S64x5000 : Shape := ⟨2, ![64, 5000]⟩
abbrev S64x2 : Shape := ⟨2, ![64, 2]⟩
abbrev S1x2 : Shape := ⟨2, ![1, 2]⟩

abbrev nBuf : Space → Nat
  | .hbm => 100
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S128x2, .f32⟩
  | .hbm, ⟨11, _⟩ => ⟨S2, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S50000, .i32⟩
  | .hbm, ⟨17, _⟩ => ⟨S1650000, .i32⟩
  | .hbm, ⟨18, _⟩ => ⟨S1650000, .i32⟩
  | .hbm, ⟨19, _⟩ => ⟨S_, .f32⟩
  | .hbm, ⟨20, _⟩ => ⟨S50000, .f32⟩
  | .hbm, ⟨21, _⟩ => ⟨S1650000, .f32⟩
  | .hbm, ⟨22, _⟩ => ⟨S_, .f32⟩
  | .hbm, ⟨23, _⟩ => ⟨S50000, .f32⟩
  | .hbm, ⟨24, _⟩ => ⟨S1650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000, .f32⟩
  | .hbm, ⟨60, _⟩ => ⟨S1650000, .f32⟩
  | .hbm, ⟨61, _⟩ => ⟨S50000x128, .f32⟩
  | .hbm, ⟨62, _⟩ => ⟨S_, .i32⟩
  | .hbm, ⟨63, _⟩ => ⟨S1650000, .i32⟩
  | .hbm, ⟨64, _⟩ => ⟨S1650000, .i1⟩
  | .hbm, ⟨65, _⟩ => ⟨S_, .i32⟩
  | .hbm, ⟨66, _⟩ => ⟨S1650000, .i32⟩
  | .hbm, ⟨67, _⟩ => ⟨S1650000, .i32⟩
  | .hbm, ⟨68, _⟩ => ⟨S1650000, .i32⟩
  | .hbm, ⟨69, _⟩ => ⟨S1650000x1, .i32⟩
  | .hbm, ⟨70, _⟩ => ⟨S1650000x128, .f32⟩
  | .hbm, ⟨71, _⟩ => ⟨S1650000x1, .f32⟩
  | .hbm, ⟨72, _⟩ => ⟨S1650000x128, .f32⟩
  | .hbm, ⟨73, _⟩ => ⟨S1650000x128, .f32⟩
  | .hbm, ⟨74, _⟩ => ⟨S_, .f32⟩
  | .hbm, ⟨75, _⟩ => ⟨S50000x128, .f32⟩
  | .hbm, ⟨76, _⟩ => ⟨S1650000x1, .i32⟩
  | .hbm, ⟨77, _⟩ => ⟨S50000x128, .f32⟩
  | .hbm, ⟨78, _⟩ => ⟨S50000x128, .f32⟩
  | .hbm, ⟨79, _⟩ => ⟨S50000x64, .f32⟩
  | .hbm, ⟨80, _⟩ => ⟨S_, .i32⟩
  | .hbm, ⟨81, _⟩ => ⟨S1650000, .i32⟩
  | .hbm, ⟨82, _⟩ => ⟨S1650000, .i1⟩
  | .hbm, ⟨83, _⟩ => ⟨S_, .i32⟩
  | .hbm, ⟨84, _⟩ => ⟨S1650000, .i32⟩
  | .hbm, ⟨85, _⟩ => ⟨S1650000, .i32⟩
  | .hbm, ⟨86, _⟩ => ⟨S1650000, .i32⟩
  | .hbm, ⟨87, _⟩ => ⟨S1650000x1, .i32⟩
  | .hbm, ⟨88, _⟩ => ⟨S1650000x64, .f32⟩
  | .hbm, ⟨89, _⟩ => ⟨S1650000x1, .f32⟩
  | .hbm, ⟨90, _⟩ => ⟨S1650000x64, .f32⟩
  | .hbm, ⟨91, _⟩ => ⟨S1650000x64, .f32⟩
  | .hbm, ⟨92, _⟩ => ⟨S_, .f32⟩
  | .hbm, ⟨93, _⟩ => ⟨S50000x64, .f32⟩
  | .hbm, ⟨94, _⟩ => ⟨S1650000x1, .i32⟩
  | .hbm, ⟨95, _⟩ => ⟨S50000x64, .f32⟩
  | .hbm, ⟨96, _⟩ => ⟨S50000x64, .f32⟩
  | .hbm, ⟨97, _⟩ => ⟨S50000x1, .i32⟩
  | .hbm, ⟨98, _⟩ => ⟨S64x64, .f32⟩
  | .hbm, ⟨99, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x1, .i32⟩
  | .local _ .vmem, ⟨21, _⟩ => ⟨S5000x1, .i32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64x64, .f32⟩
  | .local _ .vmem, ⟨26, _⟩ => ⟨S64x1, .f32⟩
  | .local _ .vmem, ⟨27, _⟩ => ⟨S64x64, .f32⟩
  | .local _ .vmem, ⟨28, _⟩ => ⟨S64x128, .f32⟩
  | .local _ .vmem, ⟨29, _⟩ => ⟨S128, .f32⟩
  | .local _ .vmem, ⟨30, _⟩ => ⟨S128x2, .f32⟩
  | .local _ .vmem, ⟨31, _⟩ => ⟨S2, .f32⟩
  | .local _ .vmem, ⟨32, _⟩ => ⟨S64x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_scratch0 : Ref sig .tc := ⟨.vmem, 25, rfl⟩
abbrev cc4_scratch1 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem1_0 : DmaSem sig := 26
abbrev cc5_sem2_0 : DmaSem sig := 27
abbrev cc5_sem3_0 : DmaSem sig := 28
abbrev cc5_sem4_0 : DmaSem sig := 29
abbrev cc5_sem5_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_13 : BitVec 32 := 0#32
  let v29 : BitVec 1 := Scalar.cmpi .ne v28 c0_i32_13
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  shapeCasts_S5000x64_S5000x64 : S5000x64.ShapeCasts S5000x64
  shapeCasts_S50000_S50000x1 : S50000.ShapeCasts S50000x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  transposes_S5000x64_p1_0_S64x5000 : S5000x64.Transposes [1, 0] S64x5000
  reduces_S5000x64_S64 : S5000x64.Reduces [0] S64
  transposes_S1x64_p1_0_S64x1 : S1x64.Transposes [1, 0] S64x1
  broadcasts_S64x1_S64x64 : S64x1.Broadcasts S64x64
  inb_S64x128_S64x128_0_0 : ∀ a, (![0, 0] : Fin 2 → Nat) a + S64x128.size a ≤ S64x128.size a
  h_S64x128 : 0 < S64x128.numel
  broadcasts_S1x128_S64x128 : S1x128.Broadcasts S64x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  shapeCasts_S1x2_S1x2 : S1x2.ShapeCasts S1x2
  broadcasts_S1x2_S64x2 : S1x2.Broadcasts S64x2
  reduces_S64x2_S64 : S64x2.Reduces [1] S64
  shapeCasts_S64_S64x1 : S64.ShapeCasts S64x1
  broadcasts_S64x1_S64x2 : S64x1.Broadcasts S64x2
  inb_S64x2_S64x2_0_0 : ∀ a, (![0, 0] : Fin 2 → Nat) a + S64x2.size a ≤ S64x2.size a
  h_S64x2 : 0 < S64x2.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S64x5000_S5000x64_S64x64_1_0_0_1_n_n_wf : DotDims.WF S64x5000 S5000x64 S64x64 [1] [0] [0] [1] [] []
  dot_S64x64_S64x128_S64x128_1_0_0_1_n_n_wf : DotDims.WF S64x64 S64x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S50000x1.size a
  hwx4_0 : ∀ i : grid4.Coords, EltTy.bits .i32 = 32 ∨ (Rect.block (s := S50000x1) S5000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x64.size a ≤ S64x64.size a
  hwx5_0 : ∀ i : grid5.Coords, EltTy.bits .f32 = 32 ∨ (Rect.block (s := S64x64) S64x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x2.size a ≤ S128x2.size a
  hwx5_3 : ∀ i : grid5.Coords, EltTy.bits .f32 = 32 ∨ (Rect.block (s := S128x2) S128x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2.size a ≤ S2.size a
  hwx5_4 : ∀ i : grid5.Coords, EltTy.bits .f32 = 32 ∨ (Rect.block (s := S2) S2.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x2.size a ≤ S64x2.size a
  hwx5_5 : ∀ i : grid5.Coords, EltTy.bits .f32 = 32 ∨ (Rect.block (s := S64x2) S64x2.size (cc5_transform_5 i) (hinb5_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S64x5000_S5000x64_S64x64_1_0_0_1_n_n : DotDims S64x5000 S5000x64 S64x64 where
  lhsContracting := [1]
  rhsContracting := [0]
  lhsNonContracting := [0]
  rhsNonContracting := [1]
  lhsBatch := []
  rhsBatch := []
  wf := dot_S64x5000_S5000x64_S64x64_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S64x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v66) S64x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg10) S128x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg11) S2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v67) S64x2.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x2 : Shape := ⟨2, ![128, 2]⟩
abbrev S2 : Shape := ⟨1, ![2]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S64x64 : Shape := ⟨2, ![64, 64]⟩
abbrev S50000x1 : Shape := ⟨2, ![50000, 1]⟩
abbrev S64x1 : Shape := ⟨2, ![64, 1]⟩
abbrev S64x2 : Shape := ⟨2, ![64, 2]⟩
abbrev S1x2 : Shape := ⟨2, ![1, 2]⟩

abbrev nBuf : Space → Nat
  | .hbm => 194
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S50000, .i32⟩
  | 4 => ⟨S128x128, .f32⟩
  | 5 => ⟨S128, .f32⟩
  | 6 => ⟨S128x64, .f32⟩
  | 7 => ⟨S64, .f32⟩
  | 8 => ⟨S64x128, .f32⟩
  | 9 => ⟨S128, .f32⟩
  | 10 => ⟨S128x2, .f32⟩
  | 11 => ⟨S2, .f32⟩
  | 12 => ⟨S1x1600000, .i32⟩
  | 13 => ⟨S1600000, .i32⟩
  | 14 => ⟨S1x1600000, .i32⟩
  | 15 => ⟨S1600000, .i32⟩
  | 16 => ⟨S50000x128, .f32⟩
  | 17 => ⟨S50000, .i32⟩
  | 18 => ⟨S1650000, .i32⟩
  | 19 => ⟨S1650000, .i32⟩
  | 20 => ⟨S_, .f32⟩
  | 21 => ⟨S50000, .f32⟩
  | 22 => ⟨S1650000, .f32⟩
  | 23 => ⟨S_, .f32⟩
  | 24 => ⟨S50000, .f32⟩
  | 25 => ⟨S1650000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .i1⟩
  | 33 => ⟨S_, .f32⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000, .f32⟩
  | 61 => ⟨S1650000, .f32⟩
  | 62 => ⟨S_, .i32⟩
  | 63 => ⟨S1650000, .i32⟩
  | 64 => ⟨S1650000, .i1⟩
  | 65 => ⟨S_, .i32⟩
  | 66 => ⟨S1650000, .i32⟩
  | 67 => ⟨S1650000, .i32⟩
  | 68 => ⟨S1650000, .i32⟩
  | 69 => ⟨S1650000x1, .i32⟩
  | 70 => ⟨S1650000x128, .f32⟩
  | 71 => ⟨S1650000x1, .f32⟩
  | 72 => ⟨S1650000x128, .f32⟩
  | 73 => ⟨S1650000x128, .f32⟩
  | 74 => ⟨S_, .f32⟩
  | 75 => ⟨S50000x128, .f32⟩
  | 76 => ⟨S1650000x1, .i32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x64, .f32⟩
  | 85 => ⟨S50000, .i32⟩
  | 86 => ⟨S1650000, .i32⟩
  | 87 => ⟨S1650000, .i32⟩
  | 88 => ⟨S_, .f32⟩
  | 89 => ⟨S50000, .f32⟩
  | 90 => ⟨S1650000, .f32⟩
  | 91 => ⟨S_, .f32⟩
  | 92 => ⟨S50000, .f32⟩
  | 93 => ⟨S1650000x1, .i32⟩
  | 94 => ⟨S50000, .f32⟩
  | 95 => ⟨S_, .f32⟩
  | 96 => ⟨S50000, .f32⟩
  | 97 => ⟨S50000, .i1⟩
  | 98 => ⟨S_, .f32⟩
  | 99 => ⟨S50000, .f32⟩
  | 100 => ⟨S50000, .i1⟩
  | 101 => ⟨S_, .f32⟩
  | 102 => ⟨S_, .f32⟩
  | 103 => ⟨S50000, .f32⟩
  | 104 => ⟨S50000, .f32⟩
  | 105 => ⟨S50000, .f32⟩
  | 106 => ⟨S_, .f32⟩
  | 107 => ⟨S_, .f32⟩
  | 108 => ⟨S50000, .f32⟩
  | 109 => ⟨S50000, .f32⟩
  | 110 => ⟨S_, .i32⟩
  | 111 => ⟨S1650000, .i32⟩
  | 112 => ⟨S1650000, .i1⟩
  | 113 => ⟨S_, .i32⟩
  | 114 => ⟨S1650000, .i32⟩
  | 115 => ⟨S1650000, .i32⟩
  | 116 => ⟨S1650000, .i32⟩
  | 117 => ⟨S1650000x1, .i32⟩
  | 118 => ⟨S1650000, .f32⟩
  | 119 => ⟨S1650000, .f32⟩
  | 120 => ⟨S_, .i32⟩
  | 121 => ⟨S1650000, .i32⟩
  | 122 => ⟨S1650000, .i1⟩
  | 123 => ⟨S_, .i32⟩
  | 124 => ⟨S1650000, .i32⟩
  | 125 => ⟨S1650000, .i32⟩
  | 126 => ⟨S1650000, .i32⟩
  | 127 => ⟨S1650000x1, .i32⟩
  | _ => ⟨S50000x128, .f32⟩

abbrev hbmTy0_1 (i : Nat) : BufTy := match i % 128 with
  | 0 => ⟨S1650000, .f32⟩
  | 1 => ⟨S1650000, .f32⟩
  | 2 => ⟨S_, .i32⟩
  | 3 => ⟨S1650000, .i32⟩
  | 4 => ⟨S1650000, .i1⟩
  | 5 => ⟨S_, .i32⟩
  | 6 => ⟨S1650000, .i32⟩
  | 7 => ⟨S1650000, .i32⟩
  | 8 => ⟨S1650000, .i32⟩
  | 9 => ⟨S1650000x1, .i32⟩
  | 10 => ⟨S1650000x64, .f32⟩
  | 11 => ⟨S1650000x1, .f32⟩
  | 12 => ⟨S1650000x64, .f32⟩
  | 13 => ⟨S1650000x64, .f32⟩
  | 14 => ⟨S_, .f32⟩
  | 15 => ⟨S50000x64, .f32⟩
  | 16 => ⟨S1650000x1, .i32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S_, .f32⟩
  | 25 => ⟨S64x64, .f32⟩
  | 26 => ⟨S50000x1, .i32⟩
  | 27 => ⟨S64x64, .f32⟩
  | 28 => ⟨S_, .f32⟩
  | 29 => ⟨S50000, .f32⟩
  | 30 => ⟨S_, .f32⟩
  | 31 => ⟨S64, .f32⟩
  | 32 => ⟨S50000x1, .i32⟩
  | 33 => ⟨S64, .f32⟩
  | 34 => ⟨S_, .f32⟩
  | 35 => ⟨S64, .f32⟩
  | 36 => ⟨S64, .f32⟩
  | 37 => ⟨S64x1, .f32⟩
  | 38 => ⟨S64x64, .f32⟩
  | 39 => ⟨S64x64, .f32⟩
  | 40 => ⟨S64x128, .f32⟩
  | 41 => ⟨S1x128, .f32⟩
  | 42 => ⟨S64x128, .f32⟩
  | 43 => ⟨S64x128, .f32⟩
  | 44 => ⟨S_, .f32⟩
  | 45 => ⟨S64x128, .f32⟩
  | 46 => ⟨S64x128, .f32⟩
  | 47 => ⟨S64x2, .f32⟩
  | 48 => ⟨S1x2, .f32⟩
  | 49 => ⟨S64x2, .f32⟩
  | 50 => ⟨S64x2, .f32⟩
  | 51 => ⟨S_, .f32⟩
  | 52 => ⟨S64, .f32⟩
  | 53 => ⟨S_, .f32⟩
  | 54 => ⟨S64, .f32⟩
  | 55 => ⟨S64, .f32⟩
  | 56 => ⟨S64x1, .f32⟩
  | 57 => ⟨S64x2, .f32⟩
  | 58 => ⟨S64x2, .f32⟩
  | 59 => ⟨S64x2, .f32⟩
  | 60 => ⟨S_, .f32⟩
  | 61 => ⟨S64, .f32⟩
  | 62 => ⟨S64x1, .f32⟩
  | 63 => ⟨S64x1, .f32⟩
  | 64 => ⟨S64x2, .f32⟩
  | 65 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_cst_15 : Ref sig .tc := ⟨.hbm, 101, rfl⟩
abbrev main_call3_v0 : Ref sig .tc := ⟨.hbm, 102, rfl⟩
abbrev main_call3_v1 : Ref sig .tc := ⟨.hbm, 103, rfl⟩
abbrev main_v66 : Ref sig .tc := ⟨.hbm, 104, rfl⟩
abbrev main_v67 : Ref sig .tc := ⟨.hbm, 105, rfl⟩
abbrev main_cst_16 : Ref sig .tc := ⟨.hbm, 106, rfl⟩
abbrev main_call4_v0 : Ref sig .tc := ⟨.hbm, 107, rfl⟩
abbrev main_call4_v1 : Ref sig .tc := ⟨.hbm, 108, rfl⟩
abbrev main_v68 : Ref sig .tc := ⟨.hbm, 109, rfl⟩
abbrev main_c_17 : Ref sig .tc := ⟨.hbm, 110, rfl⟩
abbrev main_v69 : Ref sig .tc := ⟨.hbm, 111, rfl⟩
abbrev main_v70 : Ref sig .tc := ⟨.hbm, 112, rfl⟩
abbrev main_c_18 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_19 : Ref sig .tc := ⟨.hbm, 120, rfl⟩
abbrev main_v77 : Ref sig .tc := ⟨.hbm, 121, rfl⟩
abbrev main_v78 : Ref sig .tc := ⟨.hbm, 122, rfl⟩
abbrev main_c_20 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_21 : Ref sig .tc := ⟨.hbm, 130, rfl⟩
abbrev main_v85 : Ref sig .tc := ⟨.hbm, 131, rfl⟩
abbrev main_v86 : Ref sig .tc := ⟨.hbm, 132, rfl⟩
abbrev main_c_22 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_23 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_call5_cst : Ref sig .tc := ⟨.hbm, 149, rfl⟩
abbrev main_call5_v0 : Ref sig .tc := ⟨.hbm, 150, rfl⟩
abbrev main_v101 : Ref sig .tc := ⟨.hbm, 151, rfl⟩
abbrev main_cst_24 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_25 : Ref sig .tc := ⟨.hbm, 156, rfl⟩
abbrev main_v105 : Ref sig .tc := ⟨.hbm, 157, rfl⟩
abbrev main_cst_26 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_27 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_call6_cst : Ref sig .tc := ⟨.hbm, 172, rfl⟩
abbrev main_call6_v0 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_call7_cst : Ref sig .tc := ⟨.hbm, 179, rfl⟩
abbrev main_call7_v0 : Ref sig .tc := ⟨.hbm, 180, rfl⟩
abbrev main_call7_cst_0 : Ref sig .tc := ⟨.hbm, 181, rfl⟩
abbrev main_call7_v1 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_call7_v5 : Ref sig .tc := ⟨.hbm, 186, rfl⟩
abbrev main_call7_v6 : Ref sig .tc := ⟨.hbm, 187, rfl⟩
abbrev main_call7_cst_1 : Ref sig .tc := ⟨.hbm, 188, rfl⟩
abbrev main_call7_v7 : Ref sig .tc := ⟨.hbm, 189, rfl⟩
abbrev main_call7_v8 : Ref sig .tc := ⟨.hbm, 190, rfl⟩
abbrev main_call7_v9 : Ref sig .tc := ⟨.hbm, 191, rfl⟩
abbrev main_call7_v10 : Ref sig .tc := ⟨.hbm, 192, rfl⟩
abbrev main_v123 : Ref sig .tc := ⟨.hbm, 193, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x128_S64x128_1_0_0_1_n_n_wf : DotDims.WF S64x64 S64x128 S64x128 [1] [0] [0] [1] [] []
  dot_S64x128_S128x2_S64x2_1_0_0_1_n_n_wf : DotDims.WF S64x128 S128x2 S64x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.Spec.lean ====
/- The network both programs compute, step by step, as whole-array functions over any float family; each step is written
   as the composition of host operations by which the reference computes it. -/
import proofs.«410560_j10393820857081_1_alg».proof.ReferenceIdeal
import proofs.«410560_j10393820857081_1_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-- Source node of every edge, then each node once more as the source of its own loop. -/
def rowIdx (ei : Vec F S2x1600000 .i32) : Vec F S1650000 .i32 :=
  concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0

/-- Target node of every edge, then each node once more as the target of its own loop. -/
def colIdx (ei : Vec F S2x1600000 .i32) : Vec F S1650000 .i32 :=
  concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0

/-- Symmetric normalisation: an edge's weight times the inverse square roots of its two ends' weighted in-degrees (zero where the degree is not positive). -/
def norm (ei : Vec F S2x1600000 .i32) (ea : Vec F S1600000 .f32) : Vec F S1650000 .f32 :=
  mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (colIdx ei)) (concatenate S1650000 0 [⟨S1600000, ea⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (colIdx ei)) (concatenate S1650000 0 [⟨S1600000, ea⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.scatterAdd scatter_S50000_S1650000x1_S1650000_n_0_0_1 (broadcastInDim S50000 ![] bcast_S_S50000 (constant S_ .f32 0x00000000#32)) (broadcastInDim S1650000x1 ![0] bcast_S1650000_S1650000x1_0 (colIdx ei)) (concatenate S1650000 0 [⟨S1600000, ea⟩, ⟨S50000, (broadcastInDim S50000 ![] bcast_S_S50000 (constant S_ .f32 0x3F800000#32))⟩] concatenates_S1600000_S50000_S1650000_d0)) (broadcastInDim S50000 ![] bcast_S_S50000 (id (constant S_ .f32 0x3F800000#32))))) (broadcastInDim S50000 ![] bcast_S_S50000 (id (constant S_ .f32 0x00000000#32)))) (broadcastInDim S1650000x1 ![0] bcast_S1650000_S1650000x1_0 (select (cmpi .slt (rowIdx ei) (broadcastInDim S1650000 ![] bcast_S_S1650000 (constantI S_ 32 0#32))) (addi (rowIdx ei) (broadcastInDim S1650000 ![] bcast_S_S1650000 (constantI S_ 32 50000#32))) (rowIdx ei)))) (concatenate S1650000 0 [⟨S1600000, ea⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (colIdx ei)) (concatenate S1650000 0 [⟨S1600000, ea⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (colIdx ei)) (concatenate S1650000 0 [⟨S1600000, ea⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.scatterAdd scatter_S50000_S1650000x1_S1650000_n_0_0_1 (broadcastInDim S50000 ![] bcast_S_S50000 (constant S_ .f32 0x00000000#32)) (broadcastInDim S1650000x1 ![0] bcast_S1650000_S1650000x1_0 (colIdx ei)) (concatenate S1650000 0 [⟨S1600000, ea⟩, ⟨S50000, (broadcastInDim S50000 ![] bcast_S_S50000 (constant S_ .f32 0x3F800000#32))⟩] concatenates_S1600000_S50000_S1650000_d0)) (broadcastInDim S50000 ![] bcast_S_S50000 (id (constant S_ .f32 0x3F800000#32))))) (broadcastInDim S50000 ![] bcast_S_S50000 (id (constant S_ .f32 0x00000000#32)))) (broadcastInDim S1650000x1 ![0] bcast_S1650000_S1650000x1_0 (select (cmpi .slt (colIdx ei) (broadcastInDim S1650000 ![] bcast_S_S1650000 (constantI S_ 32 0#32))) (addi (colIdx ei) (broadcastInDim S1650000 ![] bcast_S_S1650000 (constantI S_ 32 50000#32))) (colIdx ei))))

/-- x · W₁. -/
def lin1 (x : Vec F S50000x128 .f32) (w : Vec F S128x128 .f32) : Vec F S50000x128 .f32 :=
  Host.dotGeneral dot_S50000x128_S128x128_S50000x128_1_0_0_1_n_n none x w

/-- Neighbourhood sum on 128 features: each edge carries its source's row, scaled by the edge's weight, to its target. -/
def agg128 (ei : Vec F S2x1600000 .i32) (ea : Vec F S1600000 .f32) (y : Vec F S50000x128 .f32) : Vec F S50000x128 .f32 :=
  Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 (colIdx ei)) (mulf (Host.gather gather_S50000x128_S1650000x1_S1650000x128_1_0_n_n_0_1_1128 y (broadcastInDim S1650000x1 ![0] bcast_S1650000_S1650000x1_0 (select (cmpi .slt (rowIdx ei) (broadcastInDim S1650000 ![] bcast_S_S1650000 (constantI S_ 32 0#32))) (addi (rowIdx ei) (broadcastInDim S1650000 ![] bcast_S_S1650000 (constantI S_ 32 50000#32))) (rowIdx ei)))) (broadcastInDim S1650000x128 ![0, 1] bcast_S1650000x1_S1650000x128_0_1 (broadcastInDim S1650000x1 ![0] bcast_S1650000_S1650000x1_0 (norm ei ea))))

/-- max(a + b, 0) on 128 features, b added to every row. -/
def biasRelu128 (a : Vec F S50000x128 .f32) (b : Vec F S128 .f32) : Vec F S50000x128 .f32 :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- h · W₂. -/
def lin2 (h : Vec F S50000x128 .f32) (w : Vec F S128x64 .f32) : Vec F S50000x64 .f32 :=
  Host.dotGeneral dot_S50000x128_S128x64_S50000x64_1_0_0_1_n_n none h w

/-- Neighbourhood sum on 64 features. -/
def agg64 (ei : Vec F S2x1600000 .i32) (ea : Vec F S1600000 .f32) (y : Vec F S50000x64 .f32) : Vec F S50000x64 .f32 :=
  Host.scatterAdd scatter_S50000x64_S1650000x1_S1650000x64_1_0_0_1 (broadcastInDim S50000x64 ![] bcast_S_S50000x64 (constant S_ .f32 0x00000000#32)) (broadcastInDim S1650000x1 ![0] bcast_S1650000_S1650000x1_0 (colIdx ei)) (mulf (Host.gather gather_S50000x64_S1650000x1_S1650000x64_1_0_n_n_0_1_164 y (broadcastInDim S1650000x1 ![0] bcast_S1650000_S1650000x1_0 (select (cmpi .slt (rowIdx ei) (broadcastInDim S1650000 ![] bcast_S_S1650000 (constantI S_ 32 0#32))) (addi (rowIdx ei) (broadcastInDim S1650000 ![] bcast_S_S1650000 (constantI S_ 32 50000#32))) (rowIdx ei)))) (broadcastInDim S1650000x64 ![0, 1] bcast_S1650000x1_S1650000x64_0_1 (broadcastInDim S1650000x1 ![0] bcast_S1650000_S1650000x1_0 (norm ei ea))))

/-- max(a + b, 0) on 64 features. -/
def biasRelu64 (a : Vec F S50000x64 .f32) (b : Vec F S64 .f32) : Vec F S50000x64 .f32 :=
  maximumf (addf a (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- Mean of the node features per graph: sums by graph id over counts, a count below one taken as one. -/
def pool (x1 : Vec F S50000x64 .f32) (batch : Vec F S50000 .i32) : Vec F S64x64 .f32 :=
  Host.divf (Host.scatterAdd scatter_S64x64_S50000x1_S50000x64_1_0_0_1 (broadcastInDim S64x64 ![] bcast_S_S64x64 (constant S_ .f32 0x00000000#32)) (broadcastInDim S50000x1 ![0] bcast_S50000_S50000x1_0 batch) x1) (broadcastInDim S64x64 ![0, 1] bcast_S64x1_S64x64_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32))) (broadcastInDim S64 ![] bcast_S_S64 (constant S_ .f32 0x3F800000#32)))))

/-- Two-layer perceptron, then x − max − log Σ exp(x − max) over the two classes. -/
def head (x2 : Vec F S64x64 .f32) (w1 : Vec F S64x128 .f32) (b1 : Vec F S128 .f32) (w2 : Vec F S128x2 .f32) (b2 : Vec F S2 .f32) : Vec F S64x2 .f32 :=
  subf (subf (addf (Host.dotGeneral dot_S64x128_S128x2_S64x2_1_0_0_1_n_n none (maximumf (addf (Host.dotGeneral dot_S64x64_S64x128_S64x128_1_0_0_1_n_n none x2 w1) (broadcastInDim S64x128 ![0, 1] bcast_S1x128_S64x128_0_1 (broadcastInDim S1x128 ![1] bcast_S128_S1x128_1 b1))) (broadcastInDim S64x128 ![] bcast_S_S64x128 (constant S_ .f32 0x00000000#32))) w2) (broadcastInDim S64x2 ![0, 1] bcast_S1x2_S64x2_0_1 (broadcastInDim S1x2 ![1] bcast_S2_S1x2_1 b2))) (broadcastInDim S64x2 ![0, 1] bcast_S64x1_S64x2_0_1 (broadcastInDim S64x1 ![0] bcast_S64_S64x1_0 (maximumf (broadcastInDim S64 ![] bcast_S_S64 (constant S_ .f32 0xFF800000#32)) (Host.reduce FloatOps.maximumf (addf (Host.dotGeneral dot_S64x128_S128x2_S64x2_1_0_0_1_n_n none (maximumf (addf (Host.dotGeneral dot_S64x64_S64x128_S64x128_1_0_0_1_n_n none x2 w1) (broadcastInDim S64x128 ![0, 1] bcast_S1x128_S64x128_0_1 (broadcastInDim S1x128 ![1] bcast_S128_S1x128_1 b1))) (broadcastInDim S64x128 ![] bcast_S_S64x128 (constant S_ .f32 0x00000000#32))) w2) (broadcastInDim S64x2 ![0, 1] bcast_S1x2_S64x2_0_1 (broadcastInDim S1x2 ![1] bcast_S2_S1x2_1 b2))) (constant S_ .f32 0xFF800000#32) reducesTo_S64x2_S64_d1 h_S_))))) (broadcastInDim S64x2 ![0, 1] bcast_S64x1_S64x2_0_1 (Host.log (broadcastInDim S64x1 ![0] bcast_S64_S64x1_0 (Host.reduceAdd (Host.exp (subf (addf (Host.dotGeneral dot_S64x128_S128x2_S64x2_1_0_0_1_n_n none (maximumf (addf (Host.dotGeneral dot_S64x64_S64x128_S64x128_1_0_0_1_n_n none x2 w1) (broadcastInDim S64x128 ![0, 1] bcast_S1x128_S64x128_0_1 (broadcastInDim S1x128 ![1] bcast_S128_S1x128_1 b1))) (broadcastInDim S64x128 ![] bcast_S_S64x128 (constant S_ .f32 0x00000000#32))) w2) (broadcastInDim S64x2 ![0, 1] bcast_S1x2_S64x2_0_1 (broadcastInDim S1x2 ![1] bcast_S2_S1x2_1 b2))) (broadcastInDim S64x2 ![0, 1] bcast_S64x1_S64x2_0_1 (broadcastInDim S64x1 ![0] bcast_S64_S64x1_0 (maximumf (broadcastInDim S64 ![] bcast_S_S64 (constant S_ .f32 0xFF800000#32)) (Host.reduce FloatOps.maximumf (addf (Host.dotGeneral dot_S64x128_S128x2_S64x2_1_0_0_1_n_n none (maximumf (addf (Host.dotGeneral dot_S64x64_S64x128_S64x128_1_0_0_1_n_n none x2 w1) (broadcastInDim S64x128 ![0, 1] bcast_S1x128_S64x128_0_1 (broadcastInDim S1x128 ![1] bcast_S128_S1x128_1 b1))) (broadcastInDim S64x128 ![] bcast_S_S64x128 (constant S_ .f32 0x00000000#32))) w2) (broadcastInDim S64x2 ![0, 1] bcast_S1x2_S64x2_0_1 (broadcastInDim S1x2 ![1] bcast_S2_S1x2_1 b2))) (constant S_ .f32 0xFF800000#32) reducesTo_S64x2_S64_d1 h_S_)))))) (constant S_ .f32 0x00000000#32) reducesTo_S64x2_S64_d1 h_S_))))

/-- The whole network: two graph convolution layers, the per-graph mean, the perceptron with log-softmax. -/
def model (x : Vec F S50000x128 .f32) (ei : Vec F S2x1600000 .i32) (ea : Vec F S1600000 .f32) (batch : Vec F S50000 .i32)
    (W1 : Vec F S128x128 .f32) (b1 : Vec F S128 .f32) (W2 : Vec F S128x64 .f32) (b2 : Vec F S64 .f32)
    (fW1 : Vec F S64x128 .f32) (fb1 : Vec F S128 .f32) (fW2 : Vec F S128x2 .f32) (fb2 : Vec F S2 .f32) : Vec F S64x2 .f32 :=
  head (pool (biasRelu64 (agg64 ei ea (lin2 (biasRelu128 (agg128 ei ea (lin1 x W1)) b1) W2)) b2) batch) fW1 fb1 fW2 fb2

end Cert.Spec

end
-- ==== Proof.Ref.lean ====
/- The reference side: the composed term its run ends at is the specification's network, by unfolding the layers; its frame
   is its run with the result's conjunct dropped. -/
import proofs.«410560_j10393820857081_1_alg».proof.Defs
import proofs.«410560_j10393820857081_1_alg».proof.Proof.Gen.ReferenceIdeal.Run
import proofs.«410560_j10393820857081_1_alg».proof.Proof.Spec
import proofs.«410560_j10393820857081_1_alg».proof.Proof.Gen.Pre_finite_inputs

noncomputable section

namespace Cert.Ref

open Idealize.ShloMosaic Idealize.ShloMosaic.TcCoe Idealize.SL.Sem Cert.ReferenceIdeal

variable {F : FTy → Type} [FloatOps F]

set_option maxHeartbeats 4000000 in
theorem res_eq_model (m : (ℓ : Loc nD τ sig) → Buf (Elt F) ℓ) (c : Dev nD) :
    Value.res_main_v123 (F := F) m c
      = Cert.Spec.model (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Value.res_main_v123 Cert.Spec.model Cert.Spec.head Cert.Spec.pool Cert.Spec.biasRelu64 Cert.Spec.agg64 Cert.Spec.lin2 Cert.Spec.biasRelu128 Cert.Spec.agg128 Cert.Spec.lin1 Cert.Spec.norm Cert.Spec.rowIdx Cert.Spec.colIdx
  rfl

theorem frame_ri : Cert.frame_ReferenceIdeal := fun m ρ _ =>
  (θ_run defs _ _).mono (fun _ h c => (h c).2) (Value.run (F := Ideal) m ρ)

end Cert.Ref

end
-- ==== Proof.LibRegion.lean ====
/- Kernels that read two whole buffers and store one: their triple, and the rule that frames it into a pipelined
   loop's body obligation. General in the memory model; nothing here names a program. -/
import Idealize.ShloMosaic.Lib.Pipeline.FrameBody
import Idealize.ShloMosaic.Lib.Tactic

noncomputable section

namespace Cert.LibRegion

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ₀ : Labels}

local notation "𝕄" => MT nD τ sig Ix Val Name U Lvl

variable {c : Dev nD} {s0 s1 s2 : Shape} {e0 e1 e2 : EltTy}
  {m0 : Memref sig .tc .vmem s0 e0} {m1 : Memref sig .tc .vmem s1 e1} {m2 : Memref sig .tc .vmem s2 e2}

variable (Ix Name U Lvl) in
/-- A kernel reads buffers `m0`, `m1` at `x0`, `x1` and leaves them so, and leaves `m2`, whatever it held, at `y`. -/
def Triple3 (defs₀ : Defs nD τ sig Val Λ₀) (c : Dev nD) (E : Set Name) (prog : Prog (TpuEff nD τ sig Val Λ₀ .tc) PUnit)
    (m0 : Memref sig .tc .vmem s0 e0) (m1 : Memref sig .tc .vmem s1 e1) (m2 : Memref sig .tc .vmem s2 e2)
    (x0 : s0.Idx → Val e0) (x1 : s1.Idx → Val e1) (y : s2.Idx → Val e2) : Prop :=
  ∀ K : PUnit → sProp 𝕄,
    iprop(owns (c : Thread nD τ) m0 fullShare x0 ∗ owns (c : Thread nD τ) m1 fullShare x1 ∗ (∃ d, owns (c : Thread nD τ) m2 fullShare d)
        ∗ (iprop(owns (c : Thread nD τ) m0 fullShare x0 ∗ owns (c : Thread nD τ) m1 fullShare x1 ∗ owns (c : Thread nD τ) m2 fullShare y) -∗ K ⟨⟩))
      ⊢ wp frame (wpE defs₀ Variants.none c none) E prog K

/-- The triple follows from the kernel's run over any raw contents of the three buffers. -/
theorem Triple3.intro {defs₀ : Defs nD τ sig Val Λ₀} {E : Set Name} {prog : Prog (TpuEff nD τ sig Val Λ₀ .tc) PUnit}
    {y : (s0.Idx → Val e0) → (s1.Idx → Val e1) → s2.Idx → Val e2}
    (h : ∀ f0 f1 f2 (K : PUnit → sProp 𝕄),
      iprop((m0.view.loc (c : Thread nD τ) ↦[m0.view.set]{fullShare} f0) ∗ (m1.view.loc (c : Thread nD τ) ↦[m1.view.set]{fullShare} f1)
          ∗ (m2.view.loc (c : Thread nD τ) ↦[m2.view.set]{fullShare} f2)
          ∗ (iprop(owns (c : Thread nD τ) m0 fullShare (m0.view.read Val f0) ∗ owns (c : Thread nD τ) m1 fullShare (m1.view.read Val f1)
              ∗ owns (c : Thread nD τ) m2 fullShare (y (m0.view.read Val f0) (m1.view.read Val f1))) -∗ K ⟨⟩))
        ⊢ wp frame (wpE defs₀ Variants.none c none) E prog K) (x0 x1) :
    Triple3 Ix Name U Lvl defs₀ c E prog m0 m1 m2 x0 x1 (y x0 x1) := fun K => by
  unfold owns
  iintro ⟨⟨%f0, %hf0, H0⟩, ⟨%f1, %hf1, H1⟩, ⟨%d2, %f2, -, H2⟩, Hk⟩
  subst hf0 hf1
  iapply h
  iframe H0 H1 H2
  unfold owns
  iexact Hk

/-- Where such a run ends: the inputs are handed back as read, the output at contents that read `y`. -/
theorem ret3 {f0 : m0.view.ty.Contents Val} {f1 : m1.view.ty.Contents Val} {g : m2.view.ty.Contents Val} {y : s2.Idx → Val e2} (K : sProp 𝕄) :
    ⊢ (iprop(owns (c : Thread nD τ) m0 fullShare (m0.view.read Val f0) ∗ owns (c : Thread nD τ) m1 fullShare (m1.view.read Val f1) ∗ owns (c : Thread nD τ) m2 fullShare y) -∗ K)
      -∗ (m0.view.loc (c : Thread nD τ) ↦[m0.view.set]{fullShare} f0) -∗ (m1.view.loc (c : Thread nD τ) ↦[m1.view.set]{fullShare} f1)
      -∗ (m2.view.loc (c : Thread nD τ) ↦[m2.view.set]{fullShare} g) -∗ ⌜m2.view.read Val g = y⌝ -∗ K := by
  iintro Hk H0 H1 H2 %hy
  subst hy
  iapply Hk
  isplitl [H0]; · iapply owns_intro; iexact H0
  isplitl [H1]; · iapply owns_intro; iexact H1
  iapply owns_intro; iexact H2

/-- What a run does not touch (`P`, `Q`) is framed around it. -/
theorem wp_frame2 {defs₀ : Defs nD τ sig Val Λ₀} {E : Set Name} {prog : Prog (TpuEff nD τ sig Val Λ₀ .tc) PUnit} {P Q R S : sProp 𝕄}
    (h : ∀ K : PUnit → sProp 𝕄, iprop(R ∗ (S -∗ K ⟨⟩)) ⊢ wp frame (wpE defs₀ Variants.none c none) E prog K) :
    iprop(P ∗ Q ∗ R) ⊢ wp frame (wpE defs₀ Variants.none c none) E prog fun _ => iprop(P ∗ Q ∗ S) := by
  iintro ⟨HP, HQ, HR⟩
  iapply h
  iframe HR
  iintro HS
  iframe

/-- The triple under what else the loop holds, the inputs' buffers holding `x0`, `x1` whatever was there before. -/
theorem Triple3.frame {defs₀ : Defs nD τ sig Val Λ₀} {E : Set Name} {prog : Prog (TpuEff nD τ sig Val Λ₀ .tc) PUnit}
    {P Q : sProp 𝕄} {δ0 δ1 δ2 : Type} {b0 : δ0 → s0.Idx → Val e0} {b1 : δ1 → s1.Idx → Val e1} {b2 : δ2 → s2.Idx → Val e2}
    {x0 : s0.Idx → Val e0} {x1 : s1.Idx → Val e1} {y a : s2.Idx → Val e2} (h0 : ∀ d, b0 d = x0) (h1 : ∀ d, b1 d = x1) (ha : a = y)
    (hk : Triple3 Ix Name U Lvl defs₀ c E prog m0 m1 m2 x0 x1 y) :
    iprop(P ∗ Q ∗ (∃ d, owns (c : Thread nD τ) m0 fullShare (b0 d)) ∗ (∃ d, owns (c : Thread nD τ) m1 fullShare (b1 d)) ∗ (∃ d, owns (c : Thread nD τ) m2 fullShare (b2 d)))
      ⊢ wp frame (wpE defs₀ Variants.none c none) E prog fun _ =>
        iprop(P ∗ Q ∗ owns (c : Thread nD τ) m0 fullShare x0 ∗ owns (c : Thread nD τ) m1 fullShare x1 ∗ owns (c : Thread nD τ) m2 fullShare a) := by
  subst ha
  refine wp_frame2 fun K => ?_
  iintro ⟨⟨⟨%d0, H0⟩, ⟨%d1, H1⟩, ⟨%d2, H2⟩⟩, Hk⟩
  rw [h0, h1]
  iapply hk _
  iframe H0 H1 Hk
  iexists _; iexact H2

end Cert.LibRegion

end
-- ==== Proof.KI.R0.lean ====
/- The first linear layer's region at any contents V of the core's buffers on entry: from a row tile of x and the weight
   matrix, the tile's product with the weights is stored over the whole output block. -/
import proofs.«410560_j10393820857081_1_alg».proof.Proof.Gen.KernelIdeal.Launch
import proofs.«410560_j10393820857081_1_alg».proof.Proof.Gen.KernelIdeal.Skeleton
import proofs.«410560_j10393820857081_1_alg».proof.Proof.Gen.KernelIdeal.Points
import proofs.«410560_j10393820857081_1_alg».proof.Proof.LibRegion

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen Cert.LibRegion

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_x, k0_pay1 (View.ld x0 r0_x) (View.ld x1 r0_w)⟩]

/-- The kernel loads both inputs whole and stores once, over the whole output. -/
theorem sound_kernel0 (c : Dev nD) (t : Fin cfg0.N) (x0 x1) :
    Triple3 Unit ℕ (UR sig nD τ) ℕ (defs₀ (F := F)) c Set.univ (bodyAt0 t) (st0_0 t) (st0_1 t) (st0_2 t) x0 x1 (out0_2 x0 x1) :=
  Triple3.intro (y := out0_2) (fun f0 f1 f2 K => by
    unfold bodyAt0; rw [cc0__matmul_kernel_eq_skeleton]; unfold cc0__matmul_kernel_skel
    iintro ⟨H0, H1, H2, Hk⟩
    sl_exec
    sl_step
    iapply ret3 $$ Hk H0 H1 H2
    ipureintro
    exact View.read_writes_eq_canon _ _ _ (View.cover_of_tiled _ S5000x128.size (by rfl))) x0 x1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = out0_2 (iblk0 V c 0 t) (iblk0 V c 1 t) := by dsimp only [dat0]

/-- At every point the inputs' buffers hold their blocks, so the kernel's triple gives the loop's obligation. -/
theorem body_obligation0 (c : Dev nD) : BodyObligation (dat0 (F := F) V c) (defs₀ (F := F)) Variants.none () Set.univ := fun t => by
  rw [bigSep_W0, bigSep_W0]
  exact Triple3.frame ((dat0 V c).before_in_eq_fetched 0 rfl (fun _ => rfl) (fun _ _ _ => rfl) (fun _ => rfl) t)
    ((dat0 V c).before_in_eq_fetched 1 rfl (fun _ => rfl) (fun _ _ _ => rfl) (fun _ => rfl) t) (after0_2 V c t) (sound_kernel0 c t _ _)

end Cert.KernelIdeal.Rg

end
-- ==== Proof.KI.R1.lean ====
/- The first layer's bias-and-rectifier region at any contents V of the core's buffers on entry: the bias vector is
   added to every row of a row tile, the sum clamped below at zero and stored over the whole output block. -/
import proofs.«410560_j10393820857081_1_alg».proof.Proof.Gen.KernelIdeal.Launch
import proofs.«410560_j10393820857081_1_alg».proof.Proof.Gen.KernelIdeal.Skeleton
import proofs.«410560_j10393820857081_1_alg».proof.Proof.Gen.KernelIdeal.Points
import proofs.«410560_j10393820857081_1_alg».proof.Proof.LibRegion

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen Cert.LibRegion

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S5000x128 := Rect.unit (s := S5000x128) ![0, 0] S5000x128.size inb_S5000x128_S5000x128_0_0
abbrev r1_b : Rect S128 := Rect.unit (s := S128) ![0] S128.size inb_S128_S128_0

def out1_2 (x0 : Vec F S5000x128 .f32) (x1 : Vec F S128 .f32) : Vec F S5000x128 .f32 :=
  View.canon [⟨r1_x, k1_pay1 (View.ld x1 r1_b) (View.ld x0 r1_x)⟩]

/-- The kernel loads both inputs whole and stores once, over the whole output. -/
theorem sound_kernel1 (c : Dev nD) (t : Fin cfg1.N) (x0 x1) :
    Triple3 Unit ℕ (UR sig nD τ) ℕ (defs₀ (F := F)) c Set.univ (bodyAt1 t) (st1_0 t) (st1_1 t) (st1_2 t) x0 x1 (out1_2 x0 x1) :=
  Triple3.intro (y := out1_2) (fun f0 f1 f2 K => by
    unfold bodyAt1; rw [cc1__bias_relu_kernel_eq_skeleton]; unfold cc1__bias_relu_kernel_skel
    iintro ⟨H0, H1, H2, Hk⟩
    sl_exec
    sl_step
    iapply ret3 $$ Hk H0 H1 H2
    ipureintro
    exact View.read_writes_eq_canon _ _ _ (View.cover_of_tiled _ S5000x128.size (by rfl))) x0 x1

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl
theorem after1_2 (c : Dev nD) (t : Fin cfg1.N) : (dat1 V c).after 2 t = out1_2 (iblk1 V c 0 t) (iblk1 V c 1 t) := by dsimp only [dat1]

/-- At every point the inputs' buffers hold their blocks, so the kernel's triple gives the loop's obligation. -/
theorem body_obligation1 (c : Dev nD) : BodyObligation (dat1 (F := F) V c) (defs₀ (F := F)) Variants.none () Set.univ := fun t => by
  rw [bigSep_W1, bigSep_W1]
  exact Triple3.frame ((dat1 V c).before_in_eq_fetched 0 rfl (fun _ => rfl) (fun _ _ _ => rfl) (fun _ => rfl) t)
    ((dat1 V c).before_in_eq_fetched 1 rfl (fun _ => rfl) (fun _ _ _ => rfl) (fun _ => rfl) t) (after1_2 V c t) (sound_kernel1 c t _ _)

end Cert.KernelIdeal.Rg

end
-- ==== Proof.KI.R2.lean ====
/- The second linear layer's region at any contents V of the core's buffers on entry: from a row tile of the hidden
   activations and the second weight matrix, their product is stored over the whole output block. -/
import proofs.«410560_j10393820857081_1_alg».proof.Proof.Gen.KernelIdeal.Launch
import proofs.«410560_j10393820857081_1_alg».proof.Proof.Gen.KernelIdeal.Skeleton
import proofs.«410560_j10393820857081_1_alg».proof.Proof.Gen.KernelIdeal.Points
import proofs.«410560_j10393820857081_1_alg».proof.Proof.LibRegion

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen Cert.LibRegion

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x64 := Rect.unit (s := S128x64) ![0, 0] S128x64.size inb_S128x64_S128x64_0_0
abbrev r2_o : Rect S5000x64 := Rect.unit (s := S5000x64) ![0, 0] S5000x64.size inb_S5000x64_S5000x64_0_0

def out2_2 (x0 : Vec F S5000x128 .f32) (x1 : Vec F S128x64 .f32) : Vec F S5000x64 .f32 :=
  View.canon [⟨r2_o, k2_pay1 (View.ld x0 r2_x) (View.ld x1 r2_w)⟩]

/-- The kernel loads both inputs whole and stores once, over the whole output. -/
theorem sound_kernel2 (c : Dev nD) (t : Fin cfg2.N) (x0 x1) :
    Triple3 Unit ℕ (UR sig nD τ) ℕ (defs₀ (F := F)) c Set.univ (bodyAt2 t) (st2_0 t) (st2_1 t) (st2_2 t) x0 x1 (out2_2 x0 x1) :=
  Triple3.intro (y := out2_2) (fun f0 f1 f2 K => by
    unfold bodyAt2; rw [cc2__matmul_kernel_eq_skeleton]; unfold cc2__matmul_kernel_skel
    iintro ⟨H0, H1, H2, Hk⟩
    sl_exec
    sl_step
    iapply ret3 $$ Hk H0 H1 H2
    ipureintro
    exact View.read_writes_eq_canon _ _ _ (View.cover_of_tiled _ S5000x64.size (by rfl))) x0 x1

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = out2_2 (iblk2 V c 0 t) (iblk2 V c 1 t) := by dsimp only [dat2]

/-- At every point the inputs' buffers hold their blocks, so the kernel's triple gives the loop's obligation. -/
theorem body_obligation2 (c : Dev nD) : BodyObligation (dat2 (F := F) V c) (defs₀ (F := F)) Variants.none () Set.univ := fun t => by
  rw [bigSep_W2, bigSep_W2]
  exact Triple3.frame ((dat2 V c).before_in_eq_fetched 0 rfl (fun _ => rfl) (fun _ _ _ => rfl) (fun _ => rfl) t)
    ((dat2 V c).before_in_eq_fetched 1 rfl (fun _ => rfl) (fun _ _ _ => rfl) (fun _ => rfl) t) (after2_2 V c t) (sound_kernel2 c t _ _)

end Cert.KernelIdeal.Rg

end
-- ==== Proof.KI.R3.lean ====
/- The second layer's bias-and-rectifier region at any contents V of the core's buffers on entry: the bias vector is
   added to every row of a row tile, the sum clamped below at zero and stored over the whole output block. -/
import proofs.«410560_j10393820857081_1_alg».proof.Proof.Gen.KernelIdeal.Launch
import proofs.«410560_j10393820857081_1_alg».proof.Proof.Gen.KernelIdeal.Skeleton
import proofs.«410560_j10393820857081_1_alg».proof.Proof.Gen.KernelIdeal.Points
import proofs.«410560_j10393820857081_1_alg».proof.Proof.LibRegion

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen Cert.LibRegion

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S5000x64 := Rect.unit (s := S5000x64) ![0, 0] S5000x64.size inb_S5000x64_S5000x64_0_0
abbrev r3_b : Rect S64 := Rect.unit (s := S64) ![0] S64.size inb_S64_S64_0

def out3_2 (x0 : Vec F S5000x64 .f32) (x1 : Vec F S64 .f32) : Vec F S5000x64 .f32 :=
  View.canon [⟨r3_x, k3_pay1 (View.ld x1 r3_b) (View.ld x0 r3_x)⟩]

/-- The kernel loads both inputs whole and stores once, over the whole output. -/
theorem sound_kernel3 (c : Dev nD) (t : Fin cfg3.N) (x0 x1) :
    Triple3 Unit ℕ (UR sig nD τ) ℕ (defs₀ (F := F)) c Set.univ (bodyAt3 t) (st3_0 t) (st3_1 t) (st3_2 t) x0 x1 (out3_2 x0 x1) :=
  Triple3.intro (y := out3_2) (fun f0 f1 f2 K => by
    unfold bodyAt3; rw [cc3__bias_relu_kernel_eq_skeleton]; unfold cc3__bias_relu_kernel_skel
    iintro ⟨H0, H1, H2, Hk⟩
    sl_exec
    sl_step
    iapply ret3 $$ Hk H0 H1 H2
    ipureintro
    exact View.read_writes_eq_canon _ _ _ (View.cover_of_tiled _ S5000x64.size (by rfl))) x0 x1

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem after3_2 (c : Dev nD) (t : Fin cfg3.N) : (dat3 V c).after 2 t = out3_2 (iblk3 V c 0 t) (iblk3 V c 1 t) := by dsimp only [dat3]

/-- At every point the inputs' buffers hold their blocks, so the kernel's triple gives the loop's obligation. -/
theorem body_obligation3 (c : Dev nD) : BodyObligation (dat3 (F := F) V c) (defs₀ (F := F)) Variants.none () Set.univ := fun t => by
  rw [bigSep_W3, bigSep_W3]
  exact Triple3.frame ((dat3 V c).before_in_eq_fetched 0 rfl (fun _ => rfl) (fun _ _ _ => rfl) (fun _ => rfl) t)
    ((dat3 V c).before_in_eq_fetched 1 rfl (fun _ => rfl) (fun _ _ _ => rfl) (fun _ => rfl) t) (after3_2 V c t) (sound_kernel3 c t _ _)

end Cert.KernelIdeal.Rg

end
-- ==== Proof.KI.R4.lean ====
/- The pooling region: ten row tiles of 5000 nodes; per-graph sums and counts accumulate in two scratch buffers, zeroed at the first point,
   and the last point stores sums / max(counts, 1). Proof data over any entry contents V, with the body obligation. -/
import proofs.«410560_j10393820857081_1_alg».proof.Proof.Gen.KernelIdeal.Launch
import proofs.«410560_j10393820857081_1_alg».proof.Proof.Gen.KernelIdeal.Skeleton
import proofs.«410560_j10393820857081_1_alg».proof.Proof.Gen.KernelIdeal.Points
import Idealize.ShloMosaic.Lib.Pipeline.Value
import Idealize.ShloMosaic.Lib.Tactic

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def pt4 (n : ℕ) : Fin cfg4.N := ⟨n % 10, lt_of_lt_of_eq (Nat.mod_lt n (by decide)) (show 10 = cfg4.N from N_4.symm)⟩

abbrev r4_s : Rect S64x64 := Rect.unit (s := S64x64) ![0, 0] S64x64.size inb_S64x64_S64x64_0_0
abbrev r4_c : Rect S64x1 := Rect.unit (s := S64x1) ![0, 0] S64x1.size inb_S64x1_S64x1_0_0

/-- The sums' scratch buffer after point n. -/
def sAt4 (c : Dev nD) : ℕ → Vec F S64x64 .f32
  | 0 => k4_pay4 (iblk4 V c 0 (pt4 0)) (iblk4 V c 1 (pt4 0)) (k4_pay1 (F := F))
  | n + 1 => k4_pay4 (iblk4 V c 0 (pt4 (n + 1))) (iblk4 V c 1 (pt4 (n + 1))) (sAt4 c n)

/-- The counts' scratch buffer after point n. -/
def cAt4 (c : Dev nD) : ℕ → Vec F S64x1 .f32
  | 0 => k4_pay5 (iblk4 V c 0 (pt4 0)) (k4_pay2 (F := F))
  | n + 1 => k4_pay5 (iblk4 V c 0 (pt4 (n + 1))) (cAt4 c n)

theorem sAt4_zero (c : Dev nD) : sAt4 V c 0 = k4_pay4 (iblk4 V c 0 (pt4 0)) (iblk4 V c 1 (pt4 0)) (k4_pay1 (F := F)) := rfl
theorem sAt4_succ (c : Dev nD) (n : ℕ) : sAt4 V c (n + 1) = k4_pay4 (iblk4 V c 0 (pt4 (n + 1))) (iblk4 V c 1 (pt4 (n + 1))) (sAt4 V c n) := rfl
theorem cAt4_zero (c : Dev nD) : cAt4 V c 0 = k4_pay5 (iblk4 V c 0 (pt4 0)) (k4_pay2 (F := F)) := rfl
theorem cAt4_succ (c : Dev nD) (n : ℕ) : cAt4 V c (n + 1) = k4_pay5 (iblk4 V c 0 (pt4 (n + 1))) (cAt4 V c n) := rfl

/-- What the last point's store leaves in the output's buffer. -/
def out4_2 (s : Vec F S64x64 .f32) (k : Vec F S64x1 .f32) : Vec F S64x64 .f32 :=
  View.canon [⟨r4_s, k4_pay6 (View.ld s r4_s) (View.ld k r4_c)⟩]

/-- The scratch buffers as the invariant holds them before point n: at anything before the first, at what point n - 1 left after. -/
def scr4 (c : Dev nD) (n : ℕ) : sProp (MT nD τ sig Unit (Elt F) ℕ (UR sig nD τ) ℕ) :=
  match n with
  | 0 => iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f))
  | n + 1 => iprop((((c : Thread nD τ).loc cc4_scratch0) ↦{fullShare} (sAt4 V c n)) ∗ (((c : Thread nD τ).loc cc4_scratch1) ↦{fullShare} (cAt4 V c n)))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (sAt4 V c t.val) (cAt4 V c t.val)
  Φ t := iprop(scr4 V c t.val ∗ Pipeline.scopedRestBut (Ix := Unit) (Name := ℕ) (U := UR sig nD τ) (Lvl := ℕ) (Val := Elt F) spec4 c [cc4_scratch0, cc4_scratch1] ∗ ∃ r, prngReg c r)
  q _ := fullShare
  owed _ := 0

theorem A_eq4 (c : Dev nD) (w : Fin cfg4.W) : (dat4 V c).A w = V c (Pipeline.arrRef spec4 w) := rfl
theorem after4_2 (c : Dev nD) (t : Fin cfg4.N) : (dat4 V c).after 2 t = out4_2 (sAt4 V c t.val) (cAt4 V c t.val) := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [scopedRest4_split]
  show _ ⊢ iprop(iprop(_ ∗ _) ∗ _ ∗ _)
  iintro ⟨Hg, Hs, Hr⟩
  iframe

theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [scopedRest4_split]
  show iprop(iprop(_ ∗ _) ∗ _ ∗ _) ⊢ _
  iintro ⟨⟨H0, H1⟩, Hr, Hg⟩
  iframe Hr Hg
  isplitl [H0] <;> iexists _ <;> iassumption

abbrev cond4_0 (i : grid4.Coords) : Prop :=
  Scalar.cmpi .ne (Scalar.extui (Scalar.cmpi .eq (BitVec.ofNat 32 (i 0).val) 0#32) : BitVec 32) 0#32 = 1#1
abbrev cond4_1 (i : grid4.Coords) : Prop := k4_cond2 i = 1#1

theorem hz4 : (![0, 0] : Fin 2 → ℕ) = fun _ => 0 := by funext a; fin_cases a <;> rfl

/-- A store over the whole buffer covers every index, so it alone decides what is read afterwards. -/
theorem read_last {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ fun y => ⟨_, List.Mem.head _, View.mem_set_unit_zero h inb y⟩, View.canon_cons_unit_zero h]

/-- The body in every control case at once: each conditional's effect is stated under its condition. -/
theorem sound_kernel4 (c : Dev nD) (t : Fin cfg4.N) {x0 x1 d s s' k k'} {K : PUnit → sProp (MT nD τ sig Unit (Elt F) ℕ (UR sig nD τ) ℕ)}
    (hs : s' = k4_pay4 x0 x1 (if cond4_0 (grid4.coords t) then k4_pay1 else s)) (hk : k' = k4_pay5 x0 (if cond4_0 (grid4.coords t) then k4_pay2 else k)) :
    iprop(owns c (st4_0 t) fullShare x0 ∗ owns c (st4_1 t) fullShare x1 ∗ owns c (st4_2 t) fullShare d ∗ owns c (Memref.whole cc4_scratch0) fullShare s ∗ owns c (Memref.whole cc4_scratch1) fullShare k
        ∗ (iprop(owns c (st4_0 t) fullShare x0 ∗ owns c (st4_1 t) fullShare x1 ∗ owns c (st4_2 t) fullShare (if cond4_1 (grid4.coords t) then out4_2 s' k' else d)
            ∗ owns c (Memref.whole cc4_scratch0) fullShare s' ∗ owns c (Memref.whole cc4_scratch1) fullShare k') -∗ K ⟨⟩))
      ⊢ wp frame (wpE (defs₀ (F := F)) Variants.none c none) Set.univ (bodyAt4 t) K := by
  unfold bodyAt4 owns; rw [cc4__pool_kernel_eq_skeleton]; unfold cc4__pool_kernel_skel
  iintro ⟨⟨%f0, %hf0, H0⟩, ⟨%f1, %hf1, H1⟩, ⟨%f3, %hf3, H3⟩, ⟨%f4, %hf4, H4⟩, ⟨%f5, %hf5, H5⟩, Hk⟩
  subst hf0 hf1 hf3 hf4 hf5 hs hk
  sl_exec
  sl_step
  iapply Hk
  isplitl [H0]; iexists _; isplitr; swap; iexact H0; ipureintro; rotate_left
  isplitl [H1]; iexists _; isplitr; swap; iexact H1; ipureintro; rotate_left
  isplitl [H3]; iexists _; isplitr; swap; iexact H3; ipureintro; rotate_left
  isplitl [H4]; iexists _; isplitr; swap; iexact H4; ipureintro; rotate_left
  iexists _; isplitr; swap; iexact H5; ipureintro
  all_goals
    sl_unfold_run_names
    simp only [out4_2, dite_eq_ite, apply_ite (View.read (Elt F) _), read_last (S := S64x64) _ _ hz4, read_last (S := S64x1) _ _ hz4,
      View.canon_unit_zero (S := S64x64) hz4, View.readAt_eq_ld, View.ld_unit_zero (S := S5000x1) hz4, View.ld_unit_zero (S := S5000x64) hz4,
      View.ld_unit_zero (S := S64x64) hz4, View.ld_unit_zero (S := S64x1) hz4, View.readCov_unit_zero (S := S64x64) _ hz4, View.readCov_unit_zero (S := S64x1) _ hz4]

theorem hcond4_0 : ∀ t : Fin cfg4.N, cond4_0 (grid4.coords t) ↔ t.val = 0 :=
  (by decide +kernel : ∀ t : Fin grid4.N, cond4_0 (grid4.coords t) ↔ t.val = 0)

/-- The body's second condition decides which case of the rule the output's window is in. -/
theorem hcond4_1 : ∀ t : Fin cfg4.N, (cond4_1 (grid4.coords t) → cfg4.idle 2 (grid4.coords t) = false)
    ∧ (¬cond4_1 (grid4.coords t) → cfg4.idle 2 (grid4.coords t) = true ∧ (cfg4.win 2).flush t = false) :=
  (by decide +kernel : ∀ t : Fin grid4.N, (cond4_1 (grid4.coords t) → idle4 2 (grid4.coords t) = false)
    ∧ (¬cond4_1 (grid4.coords t) → idle4 2 (grid4.coords t) = true ∧ win4_2.flush t = false))

/-- Before point t the invariant holds the scratch buffers at contents from which the body's accumulation leaves those after t. -/
theorem scr4_open (c : Dev nD) (t : Fin cfg4.N) : scr4 V c t.val ⊢ iprop(∃ s k,
    ⌜sAt4 V c t.val = k4_pay4 (iblk4 V c 0 t) (iblk4 V c 1 t) (if cond4_0 (grid4.coords t) then k4_pay1 else s)
      ∧ cAt4 V c t.val = k4_pay5 (iblk4 V c 0 t) (if cond4_0 (grid4.coords t) then k4_pay2 else k)⌝
    ∗ owns c (Memref.whole cc4_scratch0) fullShare s ∗ owns c (Memref.whole cc4_scratch1) fullShare k) := by
  have hp : pt4 t.val = t := Fin.ext (Nat.mod_eq_of_lt (lt_of_lt_of_eq t.isLt (show cfg4.N = 10 from N_4)))
  have hc := hcond4_0 t
  simp only [owns_whole]
  generalize t.val = n at hp hc ⊢
  subst hp
  cases n <;> simp only [scr4, hc, eq_self, Nat.add_one_ne_zero, ↓reduceIte]
  · iintro ⟨⟨%s, H0⟩, ⟨%k, H1⟩⟩; iexists s, k; iframe; ipureintro; exact ⟨rfl, rfl⟩
  · iintro ⟨H0, H1⟩; iexists _, _; iframe; ipureintro; exact ⟨rfl, rfl⟩

/-- The output's buffer at the stored quotient where the second condition holds, as found elsewhere, is what the rule asks back. -/
theorem leaves4_2 (c : Dev nD) (t : Fin cfg4.N) (d) :
    owns c (st4_2 t) fullShare (if cond4_1 (grid4.coords t) then out4_2 (sAt4 V c t.val) (cAt4 V c t.val) else (dat4 V c).before 2 t d) ⊢ (dat4 V c).leavesExact 2 t := by
  by_cases h : cond4_1 (grid4.coords t)
  · unfold Dat.leavesExact; rw [if_pos h, (hcond4_1 t).1 h]; exact .rfl
  · rw [if_neg h, Dat.leavesExact_idle _ 2 t ((hcond4_1 t).2 h).1 ((hcond4_1 t).2 h).2]
    iintro H; iexists d; iexact H

theorem body_obligation4 (c : Dev nD) : BodyObligation (dat4 (F := F) V c) (defs₀ (F := F)) Variants.none () Set.univ := fun t => by
  rw [bigSep_W4, bigSep_W4]
  show iprop(iprop(scr4 V c t.val ∗ _) ∗ _ ∗ (∃ d, owns _ _ _ _) ∗ (∃ d, owns _ _ _ _) ∗ (∃ d, owns _ _ _ _)) ⊢ wp _ _ _ (bodyAt4 t) fun _ =>
    iprop(iprop(iprop(_ ∗ _) ∗ _) ∗ (dat4 V c).owesAt () t.castSucc ∗ owns _ _ _ (iblk4 V c 0 t) ∗ owns _ _ _ (iblk4 V c 1 t) ∗ (dat4 V c).leavesExact 2 t)
  simp only [before4_0, before4_1, ← owns_whole]
  iintro ⟨⟨HS, HR⟩, Ho, ⟨%d0, H0⟩, ⟨%d1, H1⟩, ⟨%d2, H2⟩⟩
  ihave ⟨%s, %k, %hsk, H4, H5⟩ := scr4_open V c t $$ HS
  iapply sound_kernel4 c t hsk.1 hsk.2
  iframe H0 H1 H2 H4 H5
  iintro ⟨H0, H1, H2, H4, H5⟩
  ihave H2 := leaves4_2 V c t d2 $$ H2
  iframe

end Cert.KernelIdeal.Rg

end
-- ==== Proof.KI.R5.lean ====
/- The classifier head's region, a single grid point, at any contents V of the core's buffers on entry: from the pooled
   features, both weight matrices and both bias vectors, one store of the head's result covers the output block. -/
import proofs.«410560_j10393820857081_1_alg».proof.Proof.Gen.KernelIdeal.Launch
import proofs.«410560_j10393820857081_1_alg».proof.Proof.Gen.KernelIdeal.Skeleton
import proofs.«410560_j10393820857081_1_alg».proof.Proof.Gen.KernelIdeal.Points
import proofs.«410560_j10393820857081_1_alg».proof.Proof.LibRegion

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen Cert.LibRegion

variable {F : FTy → Type} [FloatOps F]

variable (V : (c : Dev nD) → (b : Ref sig .tc) → Buf (Elt F) ((c : Thread nD τ).loc b))

local notation "𝕄" => MT nD τ sig Unit (Elt F) ℕ (UR sig nD τ) ℕ

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S64x64 := Rect.unit (s := S64x64) ![0, 0] S64x64.size inb_S64x64_S64x64_0_0
abbrev r5_w1 : Rect S64x128 := Rect.unit (s := S64x128) ![0, 0] S64x128.size inb_S64x128_S64x128_0_0
abbrev r5_b1 : Rect S128 := Rect.unit (s := S128) ![0] S128.size inb_S128_S128_0
abbrev r5_w2 : Rect S128x2 := Rect.unit (s := S128x2) ![0, 0] S128x2.size inb_S128x2_S128x2_0_0
abbrev r5_b2 : Rect S2 := Rect.unit (s := S2) ![0] S2.size inb_S2_S2_0
abbrev r5_o : Rect S64x2 := Rect.unit (s := S64x2) ![0, 0] S64x2.size inb_S64x2_S64x2_0_0

def out5_5 (x0 : Vec F S64x64 .f32) (x1 : Vec F S64x128 .f32) (x2 : Vec F S128 .f32) (x3 : Vec F S128x2 .f32) (x4 : Vec F S2 .f32) : Vec F S64x2 .f32 :=
  View.canon [⟨r5_o, k5_pay1 (View.ld x0 r5_x) (View.ld x1 r5_w1) (View.ld x2 r5_b1) (View.ld x3 r5_w2) (View.ld x4 r5_b2)⟩]

/-- The kernel loads its five inputs whole and stores once, over the whole output. -/
theorem sound_kernel5 (c : Dev nD) (t : Fin cfg5.N) (x0 x1 x2 x3 x4) (K : PUnit → sProp 𝕄) :
    iprop(owns (c : Thread nD τ) (st5_0 t) fullShare x0 ∗ owns (c : Thread nD τ) (st5_1 t) fullShare x1 ∗ owns (c : Thread nD τ) (st5_2 t) fullShare x2
        ∗ owns (c : Thread nD τ) (st5_3 t) fullShare x3 ∗ owns (c : Thread nD τ) (st5_4 t) fullShare x4 ∗ (∃ d, owns (c : Thread nD τ) (st5_5 t) fullShare d)
        ∗ (iprop(owns (c : Thread nD τ) (st5_0 t) fullShare x0 ∗ owns (c : Thread nD τ) (st5_1 t) fullShare x1 ∗ owns (c : Thread nD τ) (st5_2 t) fullShare x2
          ∗ owns (c : Thread nD τ) (st5_3 t) fullShare x3 ∗ owns (c : Thread nD τ) (st5_4 t) fullShare x4
          ∗ owns (c : Thread nD τ) (st5_5 t) fullShare (out5_5 x0 x1 x2 x3 x4)) -∗ K ⟨⟩))
      ⊢ wp frame (wpE (defs₀ (F := F)) Variants.none c none) Set.univ (bodyAt5 t) K := by
  unfold bodyAt5; rw [cc5__mlp_kernel_eq_skeleton]; unfold cc5__mlp_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S64x2.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- What each input's buffer holds at the point is what the body leaves there: the input's block. -/
theorem before5 (c : Dev nD) (t : Fin cfg5.N) : ∀ w : Fin cfg5.W, w ≠ 5 → ∀ d, (dat5 V c).before w t d = (dat5 V c).after w t
  | 0, _, d | 1, _, d | 2, _, d | 3, _, d | 4, _, d => (dat5 V c).before_in_eq_fetched _ rfl (fun _ => rfl) (fun _ _ _ => rfl) (fun _ => rfl) t d
  | 5, h, _ => absurd rfl h

theorem body_obligation5 (c : Dev nD) : BodyObligation (dat5 (F := F) V c) (defs₀ (F := F)) Variants.none () Set.univ := fun t => by
  rw [bigSep_W5, bigSep_W5]
  refine wp_frame2 fun K => ?_
  simp (disch := decide) only [before5 V c t]
  dsimp only [dat5]
  iintro ⟨⟨⟨%d0, H0⟩, ⟨%d1, H1⟩, ⟨%d2, H2⟩, ⟨%d3, H3⟩, ⟨%d4, H4⟩, ⟨%d5, H5⟩⟩, Hk⟩
  iapply sound_kernel5 c t
  iframe H0 H1 H2 H3 H4 Hk
  iexists _; iexact H5

end Cert.KernelIdeal.Rg

end
-- ==== Proof.KI.Fold.lean ====
/- The contents of a core's buffers at each boundary between two steps of the run, as a fold from the launch memory: a host
   stretch acts by its operations; a region replaces its arrays by what it leaves there. -/
import proofs.«410560_j10393820857081_1_alg».proof.Proof.KI.R0
import proofs.«410560_j10393820857081_1_alg».proof.Proof.KI.R1
import proofs.«410560_j10393820857081_1_alg».proof.Proof.KI.R2
import proofs.«410560_j10393820857081_1_alg».proof.Proof.KI.R3
import proofs.«410560_j10393820857081_1_alg».proof.Proof.KI.R4
import proofs.«410560_j10393820857081_1_alg».proof.Proof.KI.R5
import Idealize.ShloMosaic.Lib.Pipeline.FrameSuffix

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N

abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N

abbrev W10 : Dev nD → Valuation τ sig (Elt F) := fun c => StableHlo.after hostOps3 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec3 c (W10 m ρ c) fun w => (dat3 (V10 m ρ) c).arrAt w cfg3.N

abbrev W12 : Dev nD → Valuation τ sig (Elt F) := fun c => StableHlo.after hostOps4 (W11 m ρ c)
abbrev V12 : (c : Dev nD) → (b : Ref sig .tc) → Buf (Elt F) ((c : Thread nD τ).loc b) := fun c b => W12 m ρ c b
def W13 (c : Dev nD) : Valuation τ sig (Elt F) :=
  Pipeline.withArrays spec4 c (W12 m ρ c) fun w => (dat4 (V12 m ρ) c).arrAt w cfg4.N
abbrev V13 : (c : Dev nD) → (b : Ref sig .tc) → Buf (Elt F) ((c : Thread nD τ).loc b) := fun c b => W13 m ρ c b

def W14 (c : Dev nD) : Valuation τ sig (Elt F) :=
  Pipeline.withArrays spec5 c (W13 m ρ c) fun w => (dat5 (V13 m ρ) c).arrAt w cfg5.N

end Cert.KernelIdeal.Rg

end
-- ==== Proof.KI.Run.lean ====
/- The whole program's run as fourteen steps (host stretches and kernel regions) from any launch memory: on every core
   the buffers pass from one boundary's contents to the next, so the run ends at the last boundary's. -/
import proofs.«410560_j10393820857081_1_alg».proof.Proof.KI.Fold
import proofs.«410560_j10393820857081_1_alg».proof.Proof.Gen.KernelIdeal.Regions
import Idealize.ShloMosaic.Lib.Pipeline.RegionsLoop

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 6) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V8 m ρ) c
  | ⟨3, _⟩ => fun c => dat3 (V10 m ρ) c
  | ⟨4, _⟩ => fun c => dat4 (V12 m ρ) c
  | ⟨5, _⟩ => fun c => dat5 (V13 m ρ) c
abbrev 𝒱₀ : Variants := Variants.none
abbrev L : GSem nD τ sig → Finset Unit := fun _ => ∅
abbrev lv : GSem nD τ sig → Unit → ℕ := fun _ _ => 0
/-- What every step passes on beside the buffers. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev tcOf (W : Dev nD → Valuation τ sig (Elt F)) : (c : Dev nD) → (b : Ref sig .tc) → Buf (Elt F) ((c : Thread nD τ).loc b) := fun c b => W c b

/-- The contents after region p, from the contents Wi before it: its arrays at what the region leaves, every other buffer as it was. -/
abbrev exitOf (p : Fin 6) (Wi : Dev nD → Valuation τ sig (Elt F)) (c : Dev nD) : Valuation τ sig (Elt F) :=
  Pipeline.withArrays (Pipeline.pin (pcfgs (F := F)) adm p).spec c (Wi c) fun w => (pdats m ρ p c).arrAt w (Pipeline.pin (pcfgs (F := F)) adm p).N

theorem exitOf_arr (p : Fin 6) (lf : Pipeline.LaunchFacts (nD := nD) (τ := τ) cfgs p) (Wi : Dev nD → Valuation τ sig (Elt F)) (c : Dev nD)
    (w : Fin (Pipeline.pin (pcfgs (F := F)) adm p).W) : exitOf m ρ p Wi c (Proc.devRef .tc (Pipeline.arrRef (Pipeline.pin (pcfgs (F := F)) adm p).spec w)) = (pdats m ρ p c).arrAt w (Pipeline.pin (pcfgs (F := F)) adm p).N :=
  Pipeline.withArrays_arr _ lf.win.arr_inj c _ _ w

/-- A region leaves every buffer that is no output's array as it found it: an input's array is written back unchanged. -/
theorem exitOf_kept (p : Fin 6) (lf : Pipeline.LaunchFacts (nD := nD) (τ := τ) cfgs p) (Wi : Dev nD → Valuation τ sig (Elt F))
    (hA : ∀ c w, (pdats m ρ p c).A w = tcOf Wi c (Pipeline.arrRef (Pipeline.pin (pcfgs (F := F)) adm p).spec w)) (c : Dev nD) (r : Ref sig .tc)
    (h : ∀ w, Pipeline.arrRef (Pipeline.pin (pcfgs (F := F)) adm p).spec w = r → ((Pipeline.pin (pcfgs (F := F)) adm p).win w).isOut = false) :
    exitOf m ρ p Wi c (Proc.devRef .tc r) = Wi c (Proc.devRef .tc r) := by
  by_cases hr : ∃ w, Pipeline.arrRef (Pipeline.pin (pcfgs (F := F)) adm p).spec w = r
  · obtain ⟨w, rfl⟩ := hr
    exact (exitOf_arr m ρ p lf Wi c w).trans (((pdats m ρ p c).arrAt_in w (h w rfl) _).trans (hA c w))
  · exact Pipeline.withArrays_of_ne _ c _ _ r fun w e => hr ⟨w, e⟩

theorem ΦA_in {gr W : Nat} (win : Fin W → Pipeline.WinSpec sig gr) (c : Dev nD) :
    iprop((∃ r, prngReg c r) ∗ Pipeline.scopedRest (Ix := Unit) (Name := ℕ) (U := UR sig nD τ) (Lvl := ℕ) (Val := Elt F) win c)
      ⊢ (Pipeline.ΦA win c : sProp 𝕄) := by
  unfold Pipeline.ΦA; iintro ⟨Hp, Hr⟩; isplitl [Hr]; · iexact Hr
  iexact Hp
theorem ΦA_out {gr W : Nat} (win : Fin W → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA; iintro ⟨Hr, Hp⟩; isplitl [Hp]; · iexact Hp
  iexact Hr

set_option backward.isDefEq.respectTransparency.types false in
/-- Region p as one step of the run: from the contents Wi before it to the contents after it, given the body's obligation
    and the loop invariant's entry and exit. -/
def regOf (p : Fin 6) (lf : Pipeline.LaunchFacts (nD := nD) (τ := τ) cfgs p) (Wi : Dev nD → Valuation τ sig (Elt F))
    (hbody : ∀ c, BodyObligation (pdats m ρ p c) (defs₀ (F := F)) 𝒱₀ () Set.univ)
    (howed : ∀ c t, (pdats m ρ p c).owed t = 0) (hrec : ∀ c, (pdats m ρ p c).recorded 0 = Set.univ) (hq : ∀ c w, (pdats m ρ p c).q w = fullShare)
    (hA : ∀ c w, (pdats m ρ p c).A w = tcOf Wi c (Pipeline.arrRef (Pipeline.pin (pcfgs (F := F)) adm p).spec w))
    (hpre : (Finset.univ : Finset (Fin (pcfgs (F := F) p).pre.K)) = ∅)
    (hin : ∀ c, iprop((∃ r, prngReg c r) ∗ Pipeline.scopedRest (Pipeline.pin (pcfgs (F := F)) adm p).spec c) ⊢ (pdats m ρ p c).Φ 0)
    (hout : ∀ c, (pdats m ρ p c).Φ (Fin.last (Pipeline.pin (pcfgs (F := F)) adm p).N) ⊢ iprop((∃ r, prngReg c r) ∗ Pipeline.scopedRest (Pipeline.pin (pcfgs (F := F)) adm p).spec c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (exitOf m ρ p Wi c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (tcOf Wi c)
  hentry c := by
    rw [Pipeline.ownSems0_none]
    have hsplit := Pipeline.arrays_of_unscopedBufs (p := p) (pcfgs (F := F)) adm (pdats m ρ) lf.win lf.arr_whole c
      ((pdats m ρ p c).share_full (hq c)) (tcOf Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [hpre, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ trivial)
      iexact HO
    isplitl [Hp]; · iexact Hp
    iexact Hrest
  hin c := by
    refine BIBase.Entails.trans ?_ (hin c)
    iintro ⟨Hp, -, Hr⟩
    isplitl [Hp]; · iexact Hp
    iexact Hr
  hout c := by
    rw [Pipeline.ownSems0_none]
    refine BIBase.Entails.trans (hout c) ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (tcOf Wi c) (tcOf (exitOf m ρ p Wi) c) ((pdats m ρ p c).arrAt · (Pipeline.pin (pcfgs (F := F)) adm p).N)
      (fun w => (exitOf_arr m ρ p lf Wi c w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- The fourteen steps in order: five host stretches, region 0, a stretch, regions 1 and 2, a stretch, region 3, a stretch,
    regions 4 and 5. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (regOf m ρ 0 launch0 (W5 m ρ) (body_obligation0 (tcOf (W5 m ρ))) (fun _ _ => rfl) (fun _ => rfl) (fun _ _ => rfl) (fun _ _ => rfl) rfl (ΦA_in spec0) (ΦA_out spec0)),
    .host (hseg hostOps1 hostOps1_sub hostOps1_fresh (W6 m ρ)),
    .region (regOf m ρ 1 launch1 (W7 m ρ) (body_obligation1 (tcOf (W7 m ρ))) (fun _ _ => rfl) (fun _ => rfl) (fun _ _ => rfl) (fun _ _ => rfl) rfl (ΦA_in spec1) (ΦA_out spec1)),
    .region (regOf m ρ 2 launch2 (W8 m ρ) (body_obligation2 (tcOf (W8 m ρ))) (fun _ _ => rfl) (fun _ => rfl) (fun _ _ => rfl) (fun _ _ => rfl) rfl (ΦA_in spec2) (ΦA_out spec2)),
    .host (hseg hostOps3 hostOps3_sub hostOps3_fresh (W9 m ρ)),
    .region (regOf m ρ 3 launch3 (W10 m ρ) (body_obligation3 (tcOf (W10 m ρ))) (fun _ _ => rfl) (fun _ => rfl) (fun _ _ => rfl) (fun _ _ => rfl) rfl (ΦA_in spec3) (ΦA_out spec3)),
    .host (hseg hostOps4 hostOps4_sub hostOps4_fresh (W11 m ρ)),
    .region (regOf m ρ 4 launch4 (W12 m ρ) (body_obligation4 (tcOf (W12 m ρ))) (fun _ _ => rfl) (fun _ => rfl) (fun _ _ => rfl) (fun _ _ => rfl) rfl (hin4 (tcOf (W12 m ρ))) (hout4 (tcOf (W12 m ρ)))),
    .region (regOf m ρ 5 launch5 (W13 m ρ) (body_obligation5 (tcOf (W13 m ρ))) (fun _ _ => rfl) (fun _ => rfl) (fun _ _ => rfl) (fun _ _ => rfl) rfl (ΦA_in spec5) (ΦA_out spec5)) ]

set_option backward.isDefEq.respectTransparency.types false in
/-- From any launch memory every weakly fair execution terminates, nothing faulting, with each buffer of each core at the last
    boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0, StableHlo.seq hostOps0_1, StableHlo.seq hostOps0_2, StableHlo.seq hostOps0_3, StableHlo.seq hostOps0_4,
          Prog.lift (.customCall (Pipeline.entry 0) ()), StableHlo.seq hostOps1,
          Prog.lift (.customCall (Pipeline.entry 1) ()), Prog.lift (.customCall (Pipeline.entry 2) ()), StableHlo.seq hostOps3,
          Prog.lift (.customCall (Pipeline.entry 3) ()), StableHlo.seq hostOps4,
          Prog.lift (.customCall (Pipeline.entry 4) ()), Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W14 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W14 m ρ c) ∗ (∃ r, prngReg c r)
          ∗ ∃ W, owes (c : Thread nD τ) (0 : CellTallies nD τ sig Unit) W) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- A buffer that no host stretch writes and that is no region's output. -/
abbrev Kept (r : Ref sig .tc) : Prop :=
  ¬ (Proc.devRef .tc r : DevRef τ sig).isScoped ∧ r ∉ hostOps0_W ∧ r ∉ hostOps0_1_W ∧ r ∉ hostOps0_2_W ∧ r ∉ hostOps0_3_W ∧ r ∉ hostOps0_4_W
    ∧ r ∉ hostOps1_W ∧ r ∉ hostOps3_W ∧ r ∉ hostOps4_W
    ∧ (∀ w, Pipeline.arrRef spec0 w = r → (cfg0.win w).isOut = false) ∧ (∀ w, Pipeline.arrRef spec1 w = r → (cfg1.win w).isOut = false)
    ∧ (∀ w, Pipeline.arrRef spec2 w = r → (cfg2.win w).isOut = false) ∧ (∀ w, Pipeline.arrRef spec3 w = r → (cfg3.win w).isOut = false)
    ∧ (∀ w, Pipeline.arrRef spec4 w = r → (cfg4.win w).isOut = false) ∧ (∀ w, Pipeline.arrRef spec5 w = r → (cfg5.win w).isOut = false)

/-- Such a buffer holds its launch contents at every region's entry and at the end: each stretch and each region passes it on. -/
theorem kept_at (c : Dev nD) (r : Ref sig .tc) (h : Kept r) :
    W5 m ρ c (Proc.devRef .tc r) = m ((c : Thread nD τ).loc r) ∧ W7 m ρ c (Proc.devRef .tc r) = m ((c : Thread nD τ).loc r) ∧ W8 m ρ c (Proc.devRef .tc r) = m ((c : Thread nD τ).loc r)
    ∧ W10 m ρ c (Proc.devRef .tc r) = m ((c : Thread nD τ).loc r) ∧ W11 m ρ c (Proc.devRef .tc r) = m ((c : Thread nD τ).loc r) ∧ W13 m ρ c (Proc.devRef .tc r) = m ((c : Thread nD τ).loc r)
    ∧ W14 m ρ c (Proc.devRef .tc r) = m ((c : Thread nD τ).loc r) := by
  obtain ⟨-, h0, h1, h2, h3, h4, h7, h10, h12, k0, k1, k2, k3, k4, k5⟩ := h
  have e5 : W5 m ρ c (Proc.devRef .tc r) = m ((c : Thread nD τ).loc r) :=
    (StableHlo.after_of_writes_sub hostOps0_4 _ hostOps0_4_writes h4).trans <|
    (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl
  have e7 := (StableHlo.after_of_writes_sub hostOps1 _ hostOps1_writes h7).trans <|
    (exitOf_kept m ρ 0 launch0 (W5 m ρ) (fun _ _ => rfl) c r k0).trans e5
  have e8 := (exitOf_kept m ρ 1 launch1 (W7 m ρ) (fun _ _ => rfl) c r k1).trans e7
  have e10 := (StableHlo.after_of_writes_sub hostOps3 _ hostOps3_writes h10).trans <|
    (exitOf_kept m ρ 2 launch2 (W8 m ρ) (fun _ _ => rfl) c r k2).trans e8
  have e11 := (exitOf_kept m ρ 3 launch3 (W10 m ρ) (fun _ _ => rfl) c r k3).trans e10
  have e13 := (exitOf_kept m ρ 4 launch4 (W12 m ρ) (fun _ _ => rfl) c r k4).trans <|
    (StableHlo.after_of_writes_sub hostOps4 _ hostOps4_writes h12).trans e11
  exact ⟨e5, e7, e8, e10, e11, e13, (exitOf_kept m ρ 5 launch5 (W13 m ρ) (fun _ _ => rfl) c r k5).trans e13⟩

/-- Every argument array holds its launch contents in the memory s. -/
abbrev ArgsKept (c : Dev nD) (s : (ℓ : Loc nD τ sig) → Buf (Elt F) ℓ) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)

/-- A memory that holds the last boundary's contents holds every argument as launched. -/
theorem args_kept (c : Dev nD) (s : (ℓ : Loc nD τ sig) → Buf (Elt F) ℓ)
    (h : ∀ b ∈ Pipeline.ucRefs τ sig, s (((c : Thread nD τ)).1, b) = W14 m ρ c b) : ArgsKept m c s :=
  have k (r : Ref sig .tc) (hr : Kept r) : s ((c.tc : Thread nD τ).loc r) = m ((c.tc : Thread nD τ).loc r) :=
    (h _ (mem_uc r hr.1)).trans (kept_at m ρ c r hr).2.2.2.2.2.2
  ⟨k main_arg0 (by decide), k main_arg1 (by decide), k main_arg2 (by decide), k main_arg3 (by decide), k main_arg4 (by decide), k main_arg5 (by decide),
    k main_arg6 (by decide), k main_arg7 (by decide), k main_arg8 (by decide), k main_arg9 (by decide), k main_arg10 (by decide), k main_arg11 (by decide)⟩

/-- The frame: the program runs to the end and every argument array ends holding its launch contents. -/
theorem frame : θ_run defs (onTc (τ := τ) (main (F := F))) ⟨m, fun _ => 0, ρ⟩ (fun r => ∀ c : Dev nD, ArgsKept m c r.2.mem) :=
  (θ_run defs _ _).mono (fun r h c => args_kept m ρ c _ (h c)) (run_all m ρ)

end Cert.KernelIdeal.Rg

end
-- ==== Proof.K.R0.lean ====
/- The first linear layer's region at any contents V of the core's buffers on entry: from a row tile of x and the weight
   matrix, the tile's product with the weights is stored over the whole output block. -/
import proofs.«410560_j10393820857081_1_alg».proof.Proof.Gen.Kernel.Launch
import proofs.«410560_j10393820857081_1_alg».proof.Proof.Gen.Kernel.Skeleton
import proofs.«410560_j10393820857081_1_alg».proof.Proof.Gen.Kernel.Points
import proofs.«410560_j10393820857081_1_alg».proof.Proof.LibRegion

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen Cert.LibRegion

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_x, k0_pay1 (View.ld x0 r0_x) (View.ld x1 r0_w)⟩]

/-- The kernel loads both inputs whole and stores once, over the whole output. -/
theorem sound_kernel0 (c : Dev nD) (t : Fin cfg0.N) (x0 x1) :
    Triple3 Unit ℕ (UR sig nD τ) ℕ (defs₀ (F := F)) c Set.univ (bodyAt0 t) (st0_0 t) (st0_1 t) (st0_2 t) x0 x1 (out0_2 x0 x1) :=
  Triple3.intro (y := out0_2) (fun f0 f1 f2 K => by
    unfold bodyAt0; rw [cc0__matmul_kernel_eq_skeleton]; unfold cc0__matmul_kernel_skel
    iintro ⟨H0, H1, H2, Hk⟩
    sl_exec
    sl_step
    iapply ret3 $$ Hk H0 H1 H2
    ipureintro
    exact View.read_writes_eq_canon _ _ _ (View.cover_of_tiled _ S5000x128.size (by rfl))) x0 x1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = out0_2 (iblk0 V c 0 t) (iblk0 V c 1 t) := by dsimp only [dat0]

/-- At every point the inputs' buffers hold their blocks, so the kernel's triple gives the loop's obligation. -/
theorem body_obligation0 (c : Dev nD) : BodyObligation (dat0 (F := F) V c) (defs₀ (F := F)) Variants.none () Set.univ := fun t => by
  rw [bigSep_W0, bigSep_W0]
  exact Triple3.frame ((dat0 V c).before_in_eq_fetched 0 rfl (fun _ => rfl) (fun _ _ _ => rfl) (fun _ => rfl) t)
    ((dat0 V c).before_in_eq_fetched 1 rfl (fun _ => rfl) (fun _ _ _ => rfl) (fun _ => rfl) t) (after0_2 V c t) (sound_kernel0 c t _ _)

end Cert.Kernel.Rg

end
-- ==== Proof.K.R1.lean ====
/- The first layer's bias-and-rectifier region at any contents V of the core's buffers on entry: the bias vector is
   added to every row of a row tile, the sum clamped below at zero and stored over the whole output block. -/
import proofs.«410560_j10393820857081_1_alg».proof.Proof.Gen.Kernel.Launch
import proofs.«410560_j10393820857081_1_alg».proof.Proof.Gen.Kernel.Skeleton
import proofs.«410560_j10393820857081_1_alg».proof.Proof.Gen.Kernel.Points
import proofs.«410560_j10393820857081_1_alg».proof.Proof.LibRegion

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen Cert.LibRegion

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S5000x128 := Rect.unit (s := S5000x128) ![0, 0] S5000x128.size inb_S5000x128_S5000x128_0_0
abbrev r1_b : Rect S128 := Rect.unit (s := S128) ![0] S128.size inb_S128_S128_0

def out1_2 (x0 : Vec F S5000x128 .f32) (x1 : Vec F S128 .f32) : Vec F S5000x128 .f32 :=
  View.canon [⟨r1_x, k1_pay1 (View.ld x1 r1_b) (View.ld x0 r1_x)⟩]

/-- The kernel loads both inputs whole and stores once, over the whole output. -/
theorem sound_kernel1 (c : Dev nD) (t : Fin cfg1.N) (x0 x1) :
    Triple3 Unit ℕ (UR sig nD τ) ℕ (defs₀ (F := F)) c Set.univ (bodyAt1 t) (st1_0 t) (st1_1 t) (st1_2 t) x0 x1 (out1_2 x0 x1) :=
  Triple3.intro (y := out1_2) (fun f0 f1 f2 K => by
    unfold bodyAt1; rw [cc1__bias_relu_kernel_eq_skeleton]; unfold cc1__bias_relu_kernel_skel
    iintro ⟨H0, H1, H2, Hk⟩
    sl_exec
    sl_step
    iapply ret3 $$ Hk H0 H1 H2
    ipureintro
    exact View.read_writes_eq_canon _ _ _ (View.cover_of_tiled _ S5000x128.size (by rfl))) x0 x1

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl
theorem after1_2 (c : Dev nD) (t : Fin cfg1.N) : (dat1 V c).after 2 t = out1_2 (iblk1 V c 0 t) (iblk1 V c 1 t) := by dsimp only [dat1]

/-- At every point the inputs' buffers hold their blocks, so the kernel's triple gives the loop's obligation. -/
theorem body_obligation1 (c : Dev nD) : BodyObligation (dat1 (F := F) V c) (defs₀ (F := F)) Variants.none () Set.univ := fun t => by
  rw [bigSep_W1, bigSep_W1]
  exact Triple3.frame ((dat1 V c).before_in_eq_fetched 0 rfl (fun _ => rfl) (fun _ _ _ => rfl) (fun _ => rfl) t)
    ((dat1 V c).before_in_eq_fetched 1 rfl (fun _ => rfl) (fun _ _ _ => rfl) (fun _ => rfl) t) (after1_2 V c t) (sound_kernel1 c t _ _)

end Cert.Kernel.Rg

end
-- ==== Proof.K.R2.lean ====
/- The second linear layer's region at any contents V of the core's buffers on entry: from a row tile of the hidden
   activations and the second weight matrix, their product is stored over the whole output block. -/
import proofs.«410560_j10393820857081_1_alg».proof.Proof.Gen.Kernel.Launch
import proofs.«410560_j10393820857081_1_alg».proof.Proof.Gen.Kernel.Skeleton
import proofs.«410560_j10393820857081_1_alg».proof.Proof.Gen.Kernel.Points
import proofs.«410560_j10393820857081_1_alg».proof.Proof.LibRegion

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen Cert.LibRegion

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x64 := Rect.unit (s := S128x64) ![0, 0] S128x64.size inb_S128x64_S128x64_0_0
abbrev r2_o : Rect S5000x64 := Rect.unit (s := S5000x64) ![0, 0] S5000x64.size inb_S5000x64_S5000x64_0_0

def out2_2 (x0 : Vec F S5000x128 .f32) (x1 : Vec F S128x64 .f32) : Vec F S5000x64 .f32 :=
  View.canon [⟨r2_o, k2_pay1 (View.ld x0 r2_x) (View.ld x1 r2_w)⟩]

/-- The kernel loads both inputs whole and stores once, over the whole output. -/
theorem sound_kernel2 (c : Dev nD) (t : Fin cfg2.N) (x0 x1) :
    Triple3 Unit ℕ (UR sig nD τ) ℕ (defs₀ (F := F)) c Set.univ (bodyAt2 t) (st2_0 t) (st2_1 t) (st2_2 t) x0 x1 (out2_2 x0 x1) :=
  Triple3.intro (y := out2_2) (fun f0 f1 f2 K => by
    unfold bodyAt2; rw [cc2__matmul_kernel_eq_skeleton]; unfold cc2__matmul_kernel_skel
    iintro ⟨H0, H1, H2, Hk⟩
    sl_exec
    sl_step
    iapply ret3 $$ Hk H0 H1 H2
    ipureintro
    exact View.read_writes_eq_canon _ _ _ (View.cover_of_tiled _ S5000x64.size (by rfl))) x0 x1

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = out2_2 (iblk2 V c 0 t) (iblk2 V c 1 t) := by dsimp only [dat2]

/-- At every point the inputs' buffers hold their blocks, so the kernel's triple gives the loop's obligation. -/
theorem body_obligation2 (c : Dev nD) : BodyObligation (dat2 (F := F) V c) (defs₀ (F := F)) Variants.none () Set.univ := fun t => by
  rw [bigSep_W2, bigSep_W2]
  exact Triple3.frame ((dat2 V c).before_in_eq_fetched 0 rfl (fun _ => rfl) (fun _ _ _ => rfl) (fun _ => rfl) t)
    ((dat2 V c).before_in_eq_fetched 1 rfl (fun _ => rfl) (fun _ _ _ => rfl) (fun _ => rfl) t) (after2_2 V c t) (sound_kernel2 c t _ _)

end Cert.Kernel.Rg

end
-- ==== Proof.K.R3.lean ====
/- The second layer's bias-and-rectifier region at any contents V of the core's buffers on entry: the bias vector is
   added to every row of a row tile, the sum clamped below at zero and stored over the whole output block. -/
import proofs.«410560_j10393820857081_1_alg».proof.Proof.Gen.Kernel.Launch
import proofs.«410560_j10393820857081_1_alg».proof.Proof.Gen.Kernel.Skeleton
import proofs.«410560_j10393820857081_1_alg».proof.Proof.Gen.Kernel.Points
import proofs.«410560_j10393820857081_1_alg».proof.Proof.LibRegion

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen Cert.LibRegion

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S5000x64 := Rect.unit (s := S5000x64) ![0, 0] S5000x64.size inb_S5000x64_S5000x64_0_0
abbrev r3_b : Rect S64 := Rect.unit (s := S64) ![0] S64.size inb_S64_S64_0

def out3_2 (x0 : Vec F S5000x64 .f32) (x1 : Vec F S64 .f32) : Vec F S5000x64 .f32 :=
  View.canon [⟨r3_x, k3_pay1 (View.ld x1 r3_b) (View.ld x0 r3_x)⟩]

/-- The kernel loads both inputs whole and stores once, over the whole output. -/
theorem sound_kernel3 (c : Dev nD) (t : Fin cfg3.N) (x0 x1) :
    Triple3 Unit ℕ (UR sig nD τ) ℕ (defs₀ (F := F)) c Set.univ (bodyAt3 t) (st3_0 t) (st3_1 t) (st3_2 t) x0 x1 (out3_2 x0 x1) :=
  Triple3.intro (y := out3_2) (fun f0 f1 f2 K => by
    unfold bodyAt3; rw [cc3__bias_relu_kernel_eq_skeleton]; unfold cc3__bias_relu_kernel_skel
    iintro ⟨H0, H1, H2, Hk⟩
    sl_exec
    sl_step
    iapply ret3 $$ Hk H0 H1 H2
    ipureintro
    exact View.read_writes_eq_canon _ _ _ (View.cover_of_tiled _ S5000x64.size (by rfl))) x0 x1

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem after3_2 (c : Dev nD) (t : Fin cfg3.N) : (dat3 V c).after 2 t = out3_2 (iblk3 V c 0 t) (iblk3 V c 1 t) := by dsimp only [dat3]

/-- At every point the inputs' buffers hold their blocks, so the kernel's triple gives the loop's obligation. -/
theorem body_obligation3 (c : Dev nD) : BodyObligation (dat3 (F := F) V c) (defs₀ (F := F)) Variants.none () Set.univ := fun t => by
  rw [bigSep_W3, bigSep_W3]
  exact Triple3.frame ((dat3 V c).before_in_eq_fetched 0 rfl (fun _ => rfl) (fun _ _ _ => rfl) (fun _ => rfl) t)
    ((dat3 V c).before_in_eq_fetched 1 rfl (fun _ => rfl) (fun _ _ _ => rfl) (fun _ => rfl) t) (after3_2 V c t) (sound_kernel3 c t _ _)

end Cert.Kernel.Rg

end
-- ==== Proof.K.R4.lean ====
/- The pooling region: ten row tiles of 5000 nodes; per-graph sums and counts accumulate in two scratch buffers, zeroed at the first point,
   and the last point stores sums / max(counts, 1). Proof data over any entry contents V, with the body obligation. -/
import proofs.«410560_j10393820857081_1_alg».proof.Proof.Gen.Kernel.Launch
import proofs.«410560_j10393820857081_1_alg».proof.Proof.Gen.Kernel.Skeleton
import proofs.«410560_j10393820857081_1_alg».proof.Proof.Gen.Kernel.Points
import Idealize.ShloMosaic.Lib.Pipeline.Value
import Idealize.ShloMosaic.Lib.Tactic

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def pt4 (n : ℕ) : Fin cfg4.N := ⟨n % 10, lt_of_lt_of_eq (Nat.mod_lt n (by decide)) (show 10 = cfg4.N from N_4.symm)⟩

abbrev r4_s : Rect S64x64 := Rect.unit (s := S64x64) ![0, 0] S64x64.size inb_S64x64_S64x64_0_0
abbrev r4_c : Rect S64x1 := Rect.unit (s := S64x1) ![0, 0] S64x1.size inb_S64x1_S64x1_0_0

/-- The sums' scratch buffer after point n. -/
def sAt4 (c : Dev nD) : ℕ → Vec F S64x64 .f32
  | 0 => k4_pay4 (iblk4 V c 0 (pt4 0)) (iblk4 V c 1 (pt4 0)) (k4_pay1 (F := F))
  | n + 1 => k4_pay4 (iblk4 V c 0 (pt4 (n + 1))) (iblk4 V c 1 (pt4 (n + 1))) (sAt4 c n)

/-- The counts' scratch buffer after point n. -/
def cAt4 (c : Dev nD) : ℕ → Vec F S64x1 .f32
  | 0 => k4_pay5 (iblk4 V c 0 (pt4 0)) (k4_pay2 (F := F))
  | n + 1 => k4_pay5 (iblk4 V c 0 (pt4 (n + 1))) (cAt4 c n)

theorem sAt4_zero (c : Dev nD) : sAt4 V c 0 = k4_pay4 (iblk4 V c 0 (pt4 0)) (iblk4 V c 1 (pt4 0)) (k4_pay1 (F := F)) := rfl
theorem sAt4_succ (c : Dev nD) (n : ℕ) : sAt4 V c (n + 1) = k4_pay4 (iblk4 V c 0 (pt4 (n + 1))) (iblk4 V c 1 (pt4 (n + 1))) (sAt4 V c n) := rfl
theorem cAt4_zero (c : Dev nD) : cAt4 V c 0 = k4_pay5 (iblk4 V c 0 (pt4 0)) (k4_pay2 (F := F)) := rfl
theorem cAt4_succ (c : Dev nD) (n : ℕ) : cAt4 V c (n + 1) = k4_pay5 (iblk4 V c 0 (pt4 (n + 1))) (cAt4 V c n) := rfl

/-- What the last point's store leaves in the output's buffer. -/
def out4_2 (s : Vec F S64x64 .f32) (k : Vec F S64x1 .f32) : Vec F S64x64 .f32 :=
  View.canon [⟨r4_s, k4_pay6 (View.ld s r4_s) (View.ld k r4_c)⟩]

/-- The scratch buffers as the invariant holds them before point n: at anything before the first, at what point n - 1 left after. -/
def scr4 (c : Dev nD) (n : ℕ) : sProp (MT nD τ sig Unit (Elt F) ℕ (UR sig nD τ) ℕ) :=
  match n with
  | 0 => iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f))
  | n + 1 => iprop((((c : Thread nD τ).loc cc4_scratch0) ↦{fullShare} (sAt4 V c n)) ∗ (((c : Thread nD τ).loc cc4_scratch1) ↦{fullShare} (cAt4 V c n)))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (sAt4 V c t.val) (cAt4 V c t.val)
  Φ t := iprop(scr4 V c t.val ∗ Pipeline.scopedRestBut (Ix := Unit) (Name := ℕ) (U := UR sig nD τ) (Lvl := ℕ) (Val := Elt F) spec4 c [cc4_scratch0, cc4_scratch1] ∗ ∃ r, prngReg c r)
  q _ := fullShare
  owed _ := 0

theorem A_eq4 (c : Dev nD) (w : Fin cfg4.W) : (dat4 V c).A w = V c (Pipeline.arrRef spec4 w) := rfl
theorem after4_2 (c : Dev nD) (t : Fin cfg4.N) : (dat4 V c).after 2 t = out4_2 (sAt4 V c t.val) (cAt4 V c t.val) := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [scopedRest4_split]
  show _ ⊢ iprop(iprop(_ ∗ _) ∗ _ ∗ _)
  iintro ⟨Hg, Hs, Hr⟩
  iframe

theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [scopedRest4_split]
  show iprop(iprop(_ ∗ _) ∗ _ ∗ _) ⊢ _
  iintro ⟨⟨H0, H1⟩, Hr, Hg⟩
  iframe Hr Hg
  isplitl [H0] <;> iexists _ <;> iassumption

abbrev cond4_0 (i : grid4.Coords) : Prop :=
  Scalar.cmpi .ne (Scalar.extui (Scalar.cmpi .eq (BitVec.ofNat 32 (i 0).val) 0#32) : BitVec 32) 0#32 = 1#1
abbrev cond4_1 (i : grid4.Coords) : Prop := k4_cond2 i = 1#1

theorem hz4 : (![0, 0] : Fin 2 → ℕ) = fun _ => 0 := by funext a; fin_cases a <;> rfl

/-- A store over the whole buffer covers every index, so it alone decides what is read afterwards. -/
theorem read_last {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ fun y => ⟨_, List.Mem.head _, View.mem_set_unit_zero h inb y⟩, View.canon_cons_unit_zero h]

/-- The body in every control case at once: each conditional's effect is stated under its condition. -/
theorem sound_kernel4 (c : Dev nD) (t : Fin cfg4.N) {x0 x1 d s s' k k'} {K : PUnit → sProp (MT nD τ sig Unit (Elt F) ℕ (UR sig nD τ) ℕ)}
    (hs : s' = k4_pay4 x0 x1 (if cond4_0 (grid4.coords t) then k4_pay1 else s)) (hk : k' = k4_pay5 x0 (if cond4_0 (grid4.coords t) then k4_pay2 else k)) :
    iprop(owns c (st4_0 t) fullShare x0 ∗ owns c (st4_1 t) fullShare x1 ∗ owns c (st4_2 t) fullShare d ∗ owns c (Memref.whole cc4_scratch0) fullShare s ∗ owns c (Memref.whole cc4_scratch1) fullShare k
        ∗ (iprop(owns c (st4_0 t) fullShare x0 ∗ owns c (st4_1 t) fullShare x1 ∗ owns c (st4_2 t) fullShare (if cond4_1 (grid4.coords t) then out4_2 s' k' else d)
            ∗ owns c (Memref.whole cc4_scratch0) fullShare s' ∗ owns c (Memref.whole cc4_scratch1) fullShare k') -∗ K ⟨⟩))
      ⊢ wp frame (wpE (defs₀ (F := F)) Variants.none c none) Set.univ (bodyAt4 t) K := by
  unfold bodyAt4 owns; rw [cc4__pool_kernel_eq_skeleton]; unfold cc4__pool_kernel_skel
  iintro ⟨⟨%f0, %hf0, H0⟩, ⟨%f1, %hf1, H1⟩, ⟨%f3, %hf3, H3⟩, ⟨%f4, %hf4, H4⟩, ⟨%f5, %hf5, H5⟩, Hk⟩
  subst hf0 hf1 hf3 hf4 hf5 hs hk
  sl_exec
  sl_step
  iapply Hk
  isplitl [H0]; iexists _; isplitr; swap; iexact H0; ipureintro; rotate_left
  isplitl [H1]; iexists _; isplitr; swap; iexact H1; ipureintro; rotate_left
  isplitl [H3]; iexists _; isplitr; swap; iexact H3; ipureintro; rotate_left
  isplitl [H4]; iexists _; isplitr; swap; iexact H4; ipureintro; rotate_left
  iexists _; isplitr; swap; iexact H5; ipureintro
  all_goals
    sl_unfold_run_names
    simp only [out4_2, dite_eq_ite, apply_ite (View.read (Elt F) _), read_last (S := S64x64) _ _ hz4, read_last (S := S64x1) _ _ hz4,
      View.canon_unit_zero (S := S64x64) hz4, View.readAt_eq_ld, View.ld_unit_zero (S := S5000x1) hz4, View.ld_unit_zero (S := S5000x64) hz4,
      View.ld_unit_zero (S := S64x64) hz4, View.ld_unit_zero (S := S64x1) hz4, View.readCov_unit_zero (S := S64x64) _ hz4, View.readCov_unit_zero (S := S64x1) _ hz4]

theorem hcond4_0 : ∀ t : Fin cfg4.N, cond4_0 (grid4.coords t) ↔ t.val = 0 :=
  (by decide +kernel : ∀ t : Fin grid4.N, cond4_0 (grid4.coords t) ↔ t.val = 0)

/-- The body's second condition decides which case of the rule the output's window is in. -/
theorem hcond4_1 : ∀ t : Fin cfg4.N, (cond4_1 (grid4.coords t) → cfg4.idle 2 (grid4.coords t) = false)
    ∧ (¬cond4_1 (grid4.coords t) → cfg4.idle 2 (grid4.coords t) = true ∧ (cfg4.win 2).flush t = false) :=
  (by decide +kernel : ∀ t : Fin grid4.N, (cond4_1 (grid4.coords t) → idle4 2 (grid4.coords t) = false)
    ∧ (¬cond4_1 (grid4.coords t) → idle4 2 (grid4.coords t) = true ∧ win4_2.flush t = false))

/-- Before point t the invariant holds the scratch buffers at contents from which the body's accumulation leaves those after t. -/
theorem scr4_open (c : Dev nD) (t : Fin cfg4.N) : scr4 V c t.val ⊢ iprop(∃ s k,
    ⌜sAt4 V c t.val = k4_pay4 (iblk4 V c 0 t) (iblk4 V c 1 t) (if cond4_0 (grid4.coords t) then k4_pay1 else s)
      ∧ cAt4 V c t.val = k4_pay5 (iblk4 V c 0 t) (if cond4_0 (grid4.coords t) then k4_pay2 else k)⌝
    ∗ owns c (Memref.whole cc4_scratch0) fullShare s ∗ owns c (Memref.whole cc4_scratch1) fullShare k) := by
  have hp : pt4 t.val = t := Fin.ext (Nat.mod_eq_of_lt (lt_of_lt_of_eq t.isLt (show cfg4.N = 10 from N_4)))
  have hc := hcond4_0 t
  simp only [owns_whole]
  generalize t.val = n at hp hc ⊢
  subst hp
  cases n <;> simp only [scr4, hc, eq_self, Nat.add_one_ne_zero, ↓reduceIte]
  · iintro ⟨⟨%s, H0⟩, ⟨%k, H1⟩⟩; iexists s, k; iframe; ipureintro; exact ⟨rfl, rfl⟩
  · iintro ⟨H0, H1⟩; iexists _, _; iframe; ipureintro; exact ⟨rfl, rfl⟩

/-- The output's buffer at the stored quotient where the second condition holds, as found elsewhere, is what the rule asks back. -/
theorem leaves4_2 (c : Dev nD) (t : Fin cfg4.N) (d) :
    owns c (st4_2 t) fullShare (if cond4_1 (grid4.coords t) then out4_2 (sAt4 V c t.val) (cAt4 V c t.val) else (dat4 V c).before 2 t d) ⊢ (dat4 V c).leavesExact 2 t := by
  by_cases h : cond4_1 (grid4.coords t)
  · unfold Dat.leavesExact; rw [if_pos h, (hcond4_1 t).1 h]; exact .rfl
  · rw [if_neg h, Dat.leavesExact_idle _ 2 t ((hcond4_1 t).2 h).1 ((hcond4_1 t).2 h).2]
    iintro H; iexists d; iexact H

theorem body_obligation4 (c : Dev nD) : BodyObligation (dat4 (F := F) V c) (defs₀ (F := F)) Variants.none () Set.univ := fun t => by
  rw [bigSep_W4, bigSep_W4]
  show iprop(iprop(scr4 V c t.val ∗ _) ∗ _ ∗ (∃ d, owns _ _ _ _) ∗ (∃ d, owns _ _ _ _) ∗ (∃ d, owns _ _ _ _)) ⊢ wp _ _ _ (bodyAt4 t) fun _ =>
    iprop(iprop(iprop(_ ∗ _) ∗ _) ∗ (dat4 V c).owesAt () t.castSucc ∗ owns _ _ _ (iblk4 V c 0 t) ∗ owns _ _ _ (iblk4 V c 1 t) ∗ (dat4 V c).leavesExact 2 t)
  simp only [before4_0, before4_1, ← owns_whole]
  iintro ⟨⟨HS, HR⟩, Ho, ⟨%d0, H0⟩, ⟨%d1, H1⟩, ⟨%d2, H2⟩⟩
  ihave ⟨%s, %k, %hsk, H4, H5⟩ := scr4_open V c t $$ HS
  iapply sound_kernel4 c t hsk.1 hsk.2
  iframe H0 H1 H2 H4 H5
  iintro ⟨H0, H1, H2, H4, H5⟩
  ihave H2 := leaves4_2 V c t d2 $$ H2
  iframe

end Cert.Kernel.Rg

end
-- ==== Proof.K.R5.lean ====
/- The classifier head's region, a single grid point, at any contents V of the core's buffers on entry: from the pooled
   features, both weight matrices and both bias vectors, one store of the head's result covers the output block. -/
import proofs.«410560_j10393820857081_1_alg».proof.Proof.Gen.Kernel.Launch
import proofs.«410560_j10393820857081_1_alg».proof.Proof.Gen.Kernel.Skeleton
import proofs.«410560_j10393820857081_1_alg».proof.Proof.Gen.Kernel.Points
import proofs.«410560_j10393820857081_1_alg».proof.Proof.LibRegion

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen Cert.LibRegion

variable {F : FTy → Type} [FloatOps F]

variable (V : (c : Dev nD) → (b : Ref sig .tc) → Buf (Elt F) ((c : Thread nD τ).loc b))

local notation "𝕄" => MT nD τ sig Unit (Elt F) ℕ (UR sig nD τ) ℕ

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S64x64 := Rect.unit (s := S64x64) ![0, 0] S64x64.size inb_S64x64_S64x64_0_0
abbrev r5_w1 : Rect S64x128 := Rect.unit (s := S64x128) ![0, 0] S64x128.size inb_S64x128_S64x128_0_0
abbrev r5_b1 : Rect S128 := Rect.unit (s := S128) ![0] S128.size inb_S128_S128_0
abbrev r5_w2 : Rect S128x2 := Rect.unit (s := S128x2) ![0, 0] S128x2.size inb_S128x2_S128x2_0_0
abbrev r5_b2 : Rect S2 := Rect.unit (s := S2) ![0] S2.size inb_S2_S2_0
abbrev r5_o : Rect S64x2 := Rect.unit (s := S64x2) ![0, 0] S64x2.size inb_S64x2_S64x2_0_0

def out5_5 (x0 : Vec F S64x64 .f32) (x1 : Vec F S64x128 .f32) (x2 : Vec F S128 .f32) (x3 : Vec F S128x2 .f32) (x4 : Vec F S2 .f32) : Vec F S64x2 .f32 :=
  View.canon [⟨r5_o, k5_pay1 (View.ld x0 r5_x) (View.ld x1 r5_w1) (View.ld x2 r5_b1) (View.ld x3 r5_w2) (View.ld x4 r5_b2)⟩]

/-- The kernel loads its five inputs whole and stores once, over the whole output. -/
theorem sound_kernel5 (c : Dev nD) (t : Fin cfg5.N) (x0 x1 x2 x3 x4) (K : PUnit → sProp 𝕄) :
    iprop(owns (c : Thread nD τ) (st5_0 t) fullShare x0 ∗ owns (c : Thread nD τ) (st5_1 t) fullShare x1 ∗ owns (c : Thread nD τ) (st5_2 t) fullShare x2
        ∗ owns (c : Thread nD τ) (st5_3 t) fullShare x3 ∗ owns (c : Thread nD τ) (st5_4 t) fullShare x4 ∗ (∃ d, owns (c : Thread nD τ) (st5_5 t) fullShare d)
        ∗ (iprop(owns (c : Thread nD τ) (st5_0 t) fullShare x0 ∗ owns (c : Thread nD τ) (st5_1 t) fullShare x1 ∗ owns (c : Thread nD τ) (st5_2 t) fullShare x2
          ∗ owns (c : Thread nD τ) (st5_3 t) fullShare x3 ∗ owns (c : Thread nD τ) (st5_4 t) fullShare x4
          ∗ owns (c : Thread nD τ) (st5_5 t) fullShare (out5_5 x0 x1 x2 x3 x4)) -∗ K ⟨⟩))
      ⊢ wp frame (wpE (defs₀ (F := F)) Variants.none c none) Set.univ (bodyAt5 t) K := by
  unfold bodyAt5; rw [cc5__mlp_kernel_eq_skeleton]; unfold cc5__mlp_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S64x2.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- What each input's buffer holds at the point is what the body leaves there: the input's block. -/
theorem before5 (c : Dev nD) (t : Fin cfg5.N) : ∀ w : Fin cfg5.W, w ≠ 5 → ∀ d, (dat5 V c).before w t d = (dat5 V c).after w t
  | 0, _, d | 1, _, d | 2, _, d | 3, _, d | 4, _, d => (dat5 V c).before_in_eq_fetched _ rfl (fun _ => rfl) (fun _ _ _ => rfl) (fun _ => rfl) t d
  | 5, h, _ => absurd rfl h

theorem body_obligation5 (c : Dev nD) : BodyObligation (dat5 (F := F) V c) (defs₀ (F := F)) Variants.none () Set.univ := fun t => by
  rw [bigSep_W5, bigSep_W5]
  refine wp_frame2 fun K => ?_
  simp (disch := decide) only [before5 V c t]
  dsimp only [dat5]
  iintro ⟨⟨⟨%d0, H0⟩, ⟨%d1, H1⟩, ⟨%d2, H2⟩, ⟨%d3, H3⟩, ⟨%d4, H4⟩, ⟨%d5, H5⟩⟩, Hk⟩
  iapply sound_kernel5 c t
  iframe H0 H1 H2 H3 H4 Hk
  iexists _; iexact H5

end Cert.Kernel.Rg

end
-- ==== Proof.K.Fold.lean ====
/- The contents of a core's buffers at each boundary between two steps of the run, as a fold from the launch memory: a host
   stretch acts by its operations; a region replaces its arrays by what it leaves there. -/
import proofs.«410560_j10393820857081_1_alg».proof.Proof.K.R0
import proofs.«410560_j10393820857081_1_alg».proof.Proof.K.R1
import proofs.«410560_j10393820857081_1_alg».proof.Proof.K.R2
import proofs.«410560_j10393820857081_1_alg».proof.Proof.K.R3
import proofs.«410560_j10393820857081_1_alg».proof.Proof.K.R4
import proofs.«410560_j10393820857081_1_alg».proof.Proof.K.R5
import Idealize.ShloMosaic.Lib.Pipeline.FrameSuffix

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N

abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N

abbrev W10 : Dev nD → Valuation τ sig (Elt F) := fun c => StableHlo.after hostOps3 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec3 c (W10 m ρ c) fun w => (dat3 (V10 m ρ) c).arrAt w cfg3.N

abbrev W12 : Dev nD → Valuation τ sig (Elt F) := fun c => StableHlo.after hostOps4 (W11 m ρ c)
abbrev V12 : (c : Dev nD) → (b : Ref sig .tc) → Buf (Elt F) ((c : Thread nD τ).loc b) := fun c b => W12 m ρ c b
def W13 (c : Dev nD) : Valuation τ sig (Elt F) :=
  Pipeline.withArrays spec4 c (W12 m ρ c) fun w => (dat4 (V12 m ρ) c).arrAt w cfg4.N
abbrev V13 : (c : Dev nD) → (b : Ref sig .tc) → Buf (Elt F) ((c : Thread nD τ).loc b) := fun c b => W13 m ρ c b

def W14 (c : Dev nD) : Valuation τ sig (Elt F) :=
  Pipeline.withArrays spec5 c (W13 m ρ c) fun w => (dat5 (V13 m ρ) c).arrAt w cfg5.N

end Cert.Kernel.Rg

end
-- ==== Proof.K.Run.lean ====
/- The whole program's run as fourteen steps (host stretches and kernel regions) from any launch memory: on every core
   the buffers pass from one boundary's contents to the next, so the run ends at the last boundary's. -/
import proofs.«410560_j10393820857081_1_alg».proof.Proof.K.Fold
import proofs.«410560_j10393820857081_1_alg».proof.Proof.Gen.Kernel.Regions
import Idealize.ShloMosaic.Lib.Pipeline.RegionsLoop

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 6) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V8 m ρ) c
  | ⟨3, _⟩ => fun c => dat3 (V10 m ρ) c
  | ⟨4, _⟩ => fun c => dat4 (V12 m ρ) c
  | ⟨5, _⟩ => fun c => dat5 (V13 m ρ) c
abbrev 𝒱₀ : Variants := Variants.none
abbrev L : GSem nD τ sig → Finset Unit := fun _ => ∅
abbrev lv : GSem nD τ sig → Unit → ℕ := fun _ _ => 0
/-- What every step passes on beside the buffers. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev tcOf (W : Dev nD → Valuation τ sig (Elt F)) : (c : Dev nD) → (b : Ref sig .tc) → Buf (Elt F) ((c : Thread nD τ).loc b) := fun c b => W c b

/-- The contents after region p, from the contents Wi before it: its arrays at what the region leaves, every other buffer as it was. -/
abbrev exitOf (p : Fin 6) (Wi : Dev nD → Valuation τ sig (Elt F)) (c : Dev nD) : Valuation τ sig (Elt F) :=
  Pipeline.withArrays (Pipeline.pin (pcfgs (F := F)) adm p).spec c (Wi c) fun w => (pdats m ρ p c).arrAt w (Pipeline.pin (pcfgs (F := F)) adm p).N

theorem exitOf_arr (p : Fin 6) (lf : Pipeline.LaunchFacts (nD := nD) (τ := τ) cfgs p) (Wi : Dev nD → Valuation τ sig (Elt F)) (c : Dev nD)
    (w : Fin (Pipeline.pin (pcfgs (F := F)) adm p).W) : exitOf m ρ p Wi c (Proc.devRef .tc (Pipeline.arrRef (Pipeline.pin (pcfgs (F := F)) adm p).spec w)) = (pdats m ρ p c).arrAt w (Pipeline.pin (pcfgs (F := F)) adm p).N :=
  Pipeline.withArrays_arr _ lf.win.arr_inj c _ _ w

/-- A region leaves every buffer that is no output's array as it found it: an input's array is written back unchanged. -/
theorem exitOf_kept (p : Fin 6) (lf : Pipeline.LaunchFacts (nD := nD) (τ := τ) cfgs p) (Wi : Dev nD → Valuation τ sig (Elt F))
    (hA : ∀ c w, (pdats m ρ p c).A w = tcOf Wi c (Pipeline.arrRef (Pipeline.pin (pcfgs (F := F)) adm p).spec w)) (c : Dev nD) (r : Ref sig .tc)
    (h : ∀ w, Pipeline.arrRef (Pipeline.pin (pcfgs (F := F)) adm p).spec w = r → ((Pipeline.pin (pcfgs (F := F)) adm p).win w).isOut = false) :
    exitOf m ρ p Wi c (Proc.devRef .tc r) = Wi c (Proc.devRef .tc r) := by
  by_cases hr : ∃ w, Pipeline.arrRef (Pipeline.pin (pcfgs (F := F)) adm p).spec w = r
  · obtain ⟨w, rfl⟩ := hr
    exact (exitOf_arr m ρ p lf Wi c w).trans (((pdats m ρ p c).arrAt_in w (h w rfl) _).trans (hA c w))
  · exact Pipeline.withArrays_of_ne _ c _ _ r fun w e => hr ⟨w, e⟩

theorem ΦA_in {gr W : Nat} (win : Fin W → Pipeline.WinSpec sig gr) (c : Dev nD) :
    iprop((∃ r, prngReg c r) ∗ Pipeline.scopedRest (Ix := Unit) (Name := ℕ) (U := UR sig nD τ) (Lvl := ℕ) (Val := Elt F) win c)
      ⊢ (Pipeline.ΦA win c : sProp 𝕄) := by
  unfold Pipeline.ΦA; iintro ⟨Hp, Hr⟩; isplitl [Hr]; · iexact Hr
  iexact Hp
theorem ΦA_out {gr W : Nat} (win : Fin W → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA; iintro ⟨Hr, Hp⟩; isplitl [Hp]; · iexact Hp
  iexact Hr

set_option backward.isDefEq.respectTransparency.types false in
/-- Region p as one step of the run: from the contents Wi before it to the contents after it, given the body's obligation
    and the loop invariant's entry and exit. -/
def regOf (p : Fin 6) (lf : Pipeline.LaunchFacts (nD := nD) (τ := τ) cfgs p) (Wi : Dev nD → Valuation τ sig (Elt F))
    (hbody : ∀ c, BodyObligation (pdats m ρ p c) (defs₀ (F := F)) 𝒱₀ () Set.univ)
    (howed : ∀ c t, (pdats m ρ p c).owed t = 0) (hrec : ∀ c, (pdats m ρ p c).recorded 0 = Set.univ) (hq : ∀ c w, (pdats m ρ p c).q w = fullShare)
    (hA : ∀ c w, (pdats m ρ p c).A w = tcOf Wi c (Pipeline.arrRef (Pipeline.pin (pcfgs (F := F)) adm p).spec w))
    (hpre : (Finset.univ : Finset (Fin (pcfgs (F := F) p).pre.K)) = ∅)
    (hin : ∀ c, iprop((∃ r, prngReg c r) ∗ Pipeline.scopedRest (Pipeline.pin (pcfgs (F := F)) adm p).spec c) ⊢ (pdats m ρ p c).Φ 0)
    (hout : ∀ c, (pdats m ρ p c).Φ (Fin.last (Pipeline.pin (pcfgs (F := F)) adm p).N) ⊢ iprop((∃ r, prngReg c r) ∗ Pipeline.scopedRest (Pipeline.pin (pcfgs (F := F)) adm p).spec c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (exitOf m ρ p Wi c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (tcOf Wi c)
  hentry c := by
    rw [Pipeline.ownSems0_none]
    have hsplit := Pipeline.arrays_of_unscopedBufs (p := p) (pcfgs (F := F)) adm (pdats m ρ) lf.win lf.arr_whole c
      ((pdats m ρ p c).share_full (hq c)) (tcOf Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [hpre, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ trivial)
      iexact HO
    isplitl [Hp]; · iexact Hp
    iexact Hrest
  hin c := by
    refine BIBase.Entails.trans ?_ (hin c)
    iintro ⟨Hp, -, Hr⟩
    isplitl [Hp]; · iexact Hp
    iexact Hr
  hout c := by
    rw [Pipeline.ownSems0_none]
    refine BIBase.Entails.trans (hout c) ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (tcOf Wi c) (tcOf (exitOf m ρ p Wi) c) ((pdats m ρ p c).arrAt · (Pipeline.pin (pcfgs (F := F)) adm p).N)
      (fun w => (exitOf_arr m ρ p lf Wi c w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- The fourteen steps in order: five host stretches, region 0, a stretch, regions 1 and 2, a stretch, region 3, a stretch,
    regions 4 and 5. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (regOf m ρ 0 launch0 (W5 m ρ) (body_obligation0 (tcOf (W5 m ρ))) (fun _ _ => rfl) (fun _ => rfl) (fun _ _ => rfl) (fun _ _ => rfl) rfl (ΦA_in spec0) (ΦA_out spec0)),
    .host (hseg hostOps1 hostOps1_sub hostOps1_fresh (W6 m ρ)),
    .region (regOf m ρ 1 launch1 (W7 m ρ) (body_obligation1 (tcOf (W7 m ρ))) (fun _ _ => rfl) (fun _ => rfl) (fun _ _ => rfl) (fun _ _ => rfl) rfl (ΦA_in spec1) (ΦA_out spec1)),
    .region (regOf m ρ 2 launch2 (W8 m ρ) (body_obligation2 (tcOf (W8 m ρ))) (fun _ _ => rfl) (fun _ => rfl) (fun _ _ => rfl) (fun _ _ => rfl) rfl (ΦA_in spec2) (ΦA_out spec2)),
    .host (hseg hostOps3 hostOps3_sub hostOps3_fresh (W9 m ρ)),
    .region (regOf m ρ 3 launch3 (W10 m ρ) (body_obligation3 (tcOf (W10 m ρ))) (fun _ _ => rfl) (fun _ => rfl) (fun _ _ => rfl) (fun _ _ => rfl) rfl (ΦA_in spec3) (ΦA_out spec3)),
    .host (hseg hostOps4 hostOps4_sub hostOps4_fresh (W11 m ρ)),
    .region (regOf m ρ 4 launch4 (W12 m ρ) (body_obligation4 (tcOf (W12 m ρ))) (fun _ _ => rfl) (fun _ => rfl) (fun _ _ => rfl) (fun _ _ => rfl) rfl (hin4 (tcOf (W12 m ρ))) (hout4 (tcOf (W12 m ρ)))),
    .region (regOf m ρ 5 launch5 (W13 m ρ) (body_obligation5 (tcOf (W13 m ρ))) (fun _ _ => rfl) (fun _ => rfl) (fun _ _ => rfl) (fun _ _ => rfl) rfl (ΦA_in spec5) (ΦA_out spec5)) ]

set_option backward.isDefEq.respectTransparency.types false in
/-- From any launch memory every weakly fair execution terminates, nothing faulting, with each buffer of each core at the last
    boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0, StableHlo.seq hostOps0_1, StableHlo.seq hostOps0_2, StableHlo.seq hostOps0_3, StableHlo.seq hostOps0_4,
          Prog.lift (.customCall (Pipeline.entry 0) ()), StableHlo.seq hostOps1,
          Prog.lift (.customCall (Pipeline.entry 1) ()), Prog.lift (.customCall (Pipeline.entry 2) ()), StableHlo.seq hostOps3,
          Prog.lift (.customCall (Pipeline.entry 3) ()), StableHlo.seq hostOps4,
          Prog.lift (.customCall (Pipeline.entry 4) ()), Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W14 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W14 m ρ c) ∗ (∃ r, prngReg c r)
          ∗ ∃ W, owes (c : Thread nD τ) (0 : CellTallies nD τ sig Unit) W) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- A buffer that no host stretch writes and that is no region's output. -/
abbrev Kept (r : Ref sig .tc) : Prop :=
  ¬ (Proc.devRef .tc r : DevRef τ sig).isScoped ∧ r ∉ hostOps0_W ∧ r ∉ hostOps0_1_W ∧ r ∉ hostOps0_2_W ∧ r ∉ hostOps0_3_W ∧ r ∉ hostOps0_4_W
    ∧ r ∉ hostOps1_W ∧ r ∉ hostOps3_W ∧ r ∉ hostOps4_W
    ∧ (∀ w, Pipeline.arrRef spec0 w = r → (cfg0.win w).isOut = false) ∧ (∀ w, Pipeline.arrRef spec1 w = r → (cfg1.win w).isOut = false)
    ∧ (∀ w, Pipeline.arrRef spec2 w = r → (cfg2.win w).isOut = false) ∧ (∀ w, Pipeline.arrRef spec3 w = r → (cfg3.win w).isOut = false)
    ∧ (∀ w, Pipeline.arrRef spec4 w = r → (cfg4.win w).isOut = false) ∧ (∀ w, Pipeline.arrRef spec5 w = r → (cfg5.win w).isOut = false)

/-- Such a buffer holds its launch contents at every region's entry and at the end: each stretch and each region passes it on. -/
theorem kept_at (c : Dev nD) (r : Ref sig .tc) (h : Kept r) :
    W5 m ρ c (Proc.devRef .tc r) = m ((c : Thread nD τ).loc r) ∧ W7 m ρ c (Proc.devRef .tc r) = m ((c : Thread nD τ).loc r) ∧ W8 m ρ c (Proc.devRef .tc r) = m ((c : Thread nD τ).loc r)
    ∧ W10 m ρ c (Proc.devRef .tc r) = m ((c : Thread nD τ).loc r) ∧ W11 m ρ c (Proc.devRef .tc r) = m ((c : Thread nD τ).loc r) ∧ W13 m ρ c (Proc.devRef .tc r) = m ((c : Thread nD τ).loc r)
    ∧ W14 m ρ c (Proc.devRef .tc r) = m ((c : Thread nD τ).loc r) := by
  obtain ⟨-, h0, h1, h2, h3, h4, h7, h10, h12, k0, k1, k2, k3, k4, k5⟩ := h
  have e5 : W5 m ρ c (Proc.devRef .tc r) = m ((c : Thread nD τ).loc r) :=
    (StableHlo.after_of_writes_sub hostOps0_4 _ hostOps0_4_writes h4).trans <|
    (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl
  have e7 := (StableHlo.after_of_writes_sub hostOps1 _ hostOps1_writes h7).trans <|
    (exitOf_kept m ρ 0 launch0 (W5 m ρ) (fun _ _ => rfl) c r k0).trans e5
  have e8 := (exitOf_kept m ρ 1 launch1 (W7 m ρ) (fun _ _ => rfl) c r k1).trans e7
  have e10 := (StableHlo.after_of_writes_sub hostOps3 _ hostOps3_writes h10).trans <|
    (exitOf_kept m ρ 2 launch2 (W8 m ρ) (fun _ _ => rfl) c r k2).trans e8
  have e11 := (exitOf_kept m ρ 3 launch3 (W10 m ρ) (fun _ _ => rfl) c r k3).trans e10
  have e13 := (exitOf_kept m ρ 4 launch4 (W12 m ρ) (fun _ _ => rfl) c r k4).trans <|
    (StableHlo.after_of_writes_sub hostOps4 _ hostOps4_writes h12).trans e11
  exact ⟨e5, e7, e8, e10, e11, e13, (exitOf_kept m ρ 5 launch5 (W13 m ρ) (fun _ _ => rfl) c r k5).trans e13⟩

/-- Every argument array holds its launch contents in the memory s. -/
abbrev ArgsKept (c : Dev nD) (s : (ℓ : Loc nD τ sig) → Buf (Elt F) ℓ) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)

/-- A memory that holds the last boundary's contents holds every argument as launched. -/
theorem args_kept (c : Dev nD) (s : (ℓ : Loc nD τ sig) → Buf (Elt F) ℓ)
    (h : ∀ b ∈ Pipeline.ucRefs τ sig, s (((c : Thread nD τ)).1, b) = W14 m ρ c b) : ArgsKept m c s :=
  have k (r : Ref sig .tc) (hr : Kept r) : s ((c.tc : Thread nD τ).loc r) = m ((c.tc : Thread nD τ).loc r) :=
    (h _ (mem_uc r hr.1)).trans (kept_at m ρ c r hr).2.2.2.2.2.2
  ⟨k main_arg0 (by decide), k main_arg1 (by decide), k main_arg2 (by decide), k main_arg3 (by decide), k main_arg4 (by decide), k main_arg5 (by decide),
    k main_arg6 (by decide), k main_arg7 (by decide), k main_arg8 (by decide), k main_arg9 (by decide), k main_arg10 (by decide), k main_arg11 (by decide)⟩

/-- The frame: the program runs to the end and every argument array ends holding its launch contents. -/
theorem frame : θ_run defs (onTc (τ := τ) (main (F := F))) ⟨m, fun _ => 0, ρ⟩ (fun r => ∀ c : Dev nD, ArgsKept m c r.2.mem) :=
  (θ_run defs _ _).mono (fun r h c => args_kept m ρ c _ (h c)) (run_all m ρ)

end Cert.Kernel.Rg

end
-- ==== Proof.Val.Matmul.lean ====
/- A matrix product read at an element, on both sides: the sum over the inner index of the products of the
   entries. -/
import proofs.«410560_j10393820857081_1_alg».proof.Proof.Gen.KernelIdeal.Skeleton
import proofs.«410560_j10393820857081_1_alg».proof.Proof.Spec
import Idealize.ShloMosaic.Lib.StackMember

noncomputable section

namespace Cert.Val

open Idealize.ShloMosaic Idealize.ShloMosaic.ValueIdx Idealize.ShloMosaic.StackMember

/-- A block product into the zero array is the host's product of the same operands: either is the bare sum. -/
theorem matmul_zero_plain_apply {m k n : Nat} {φ₁ φ₂ : FTy} (A : FVec Ideal ⟨2, ![m, k]⟩ φ₁) (B : FVec Ideal ⟨2, ![k, n]⟩ φ₂)
    (a : Fin m) (b : Fin n) :
    matmul (DotDims.plain m k n) none A B (constant ⟨2, ![m, n]⟩ .f32 0x00000000#32) (ix2 a b)
      = ∑ c : Fin k, A (ix2 a c) * B (ix2 c b) :=
  (Ideal.matmul_constant_zero_apply _ none A B _).trans
    ((Ideal.dotGeneral_apply _ none _ A B _).symm.trans (dotGeneral_plain_apply none A B a b))

theorem pay0_apply (x : Vec Ideal Cert.KernelIdeal.S5000x128 .f32) (w : Vec Ideal Cert.KernelIdeal.S128x128 .f32)
    (r : Fin 5000) (q : Fin 128) :
    Cert.KernelIdeal.Gen.k0_pay1 (F := Ideal) x w (ix2 r q) = ∑ k : Fin 128, x (ix2 r k) * w (ix2 k q) :=
  matmul_zero_plain_apply (truncf .bf16 x (by decide)) (truncf .bf16 w (by decide)) r q

theorem pay2_apply (x : Vec Ideal Cert.KernelIdeal.S5000x128 .f32) (w : Vec Ideal Cert.KernelIdeal.S128x64 .f32)
    (r : Fin 5000) (q : Fin 64) :
    Cert.KernelIdeal.Gen.k2_pay1 (F := Ideal) x w (ix2 r q) = ∑ k : Fin 128, x (ix2 r k) * w (ix2 k q) :=
  (matmul_zero_plain_apply (truncf .bf16 (shapeCast _ x _) (by decide)) (truncf .bf16 w (by decide)) r q).trans
    (by rw [shapeCast_self]; rfl)

theorem lin1_apply (X : (⟨Cert.ReferenceIdeal.S50000x128, .f32⟩ : BufTy).Contents (Elt Ideal))
    (W : (⟨Cert.ReferenceIdeal.S128x128, .f32⟩ : BufTy).Contents (Elt Ideal)) (n : Fin 50000) (q : Fin 128) :
    Cert.Spec.lin1 (F := Ideal) X W (ix2 n q) = ∑ k : Fin 128, X (ix2 n k) * W (ix2 k q) :=
  dotGeneral_plain_apply none X W n q

theorem lin2_apply (H : (⟨Cert.ReferenceIdeal.S50000x128, .f32⟩ : BufTy).Contents (Elt Ideal))
    (W : (⟨Cert.ReferenceIdeal.S128x64, .f32⟩ : BufTy).Contents (Elt Ideal)) (n : Fin 50000) (q : Fin 64) :
    Cert.Spec.lin2 (F := Ideal) H W (ix2 n q) = ∑ k : Fin 128, H (ix2 n k) * W (ix2 k q) :=
  dotGeneral_plain_apply none H W n q

end Cert.Val

end
-- ==== Proof.Val.Tile.lean ====
/- Row tiles of a matrix: the tile of n rows at tile index t is rows t·n .. t·n + n − 1, all columns. -/
import Idealize.ShloMosaic.Lib.Pipeline.Value
import Idealize.ShloMosaic.Lib.ValueIdx

namespace Cert.Val

open Idealize.ShloMosaic Idealize.ShloMosaic.ValueIdx

theorem hz1 : (![0] : Fin 1 → Nat) = fun _ => 0 := by decide

theorem hz2 : (![0, 0] : Fin 2 → Nat) = fun _ => 0 := by decide

/-- A block at block index zero on every axis, as large as the array, keeps each index. -/
theorem emb_origin {s : Shape} {idx : Fin s.rank → Nat} {inb : ∀ a, idx a * s.size a + s.size a ≤ s.size a}
    (h : idx = fun _ => 0) (j : s.Idx) : (Rect.unit (s := s) (fun a => idx a * s.size a) s.size inb).emb j = j := by
  subst h; funext a; apply Fin.ext
  show 0 * s.size a + 1 * (j a).val = (j a).val
  omega

variable {N C n : Nat} {idx : Fin 2 → Nat}
  {inb : ∀ a, idx a * ![n, C] a + ![n, C] a ≤ (⟨2, ![N, C]⟩ : Shape).size a}

/-- The tile at index (t, 0) sends (r, q) to (t·n + r, q). -/
theorem emb_rowTile {t : Nat} (h : idx = ![t, 0]) (r : Fin n) (q : Fin C) :
    ∃ hr, (Rect.unit (s := ⟨2, ![N, C]⟩) (fun a => idx a * ![n, C] a) ![n, C] inb).emb (ix2 r q)
      = ix2 ⟨t * n + r, hr⟩ q := by
  subst h
  have h0 : t * n + n ≤ N := inb 0
  refine ⟨by have := r.isLt; omega, funext fun a => Fin.ext ?_⟩
  match a with
  | ⟨0, _⟩ => show t * n + 1 * r.val = t * n + r.val; omega
  | ⟨1, _⟩ => show 0 * C + 1 * q.val = q.val; omega

/-- Row i₀ lies in the tile at index (i₀ / n, 0). -/
theorem mem_rowTile (hn : 0 < n) (i : (⟨2, ![N, C]⟩ : Shape).Idx) (h : idx = ![(i 0).val / n, 0]) :
    i ∈ (Rect.unit (s := ⟨2, ![N, C]⟩) (fun a => idx a * ![n, C] a) ![n, C] inb).set := by
  subst h
  rw [Rect.mem_set_unit]
  intro a
  match a with
  | ⟨0, _⟩ => exact ⟨Nat.div_mul_le_self _ _, Nat.lt_div_mul_add hn⟩
  | ⟨1, _⟩ =>
    have := idx2_lt1 i
    show 0 * C ≤ (i 1).val ∧ (i 1).val < 0 * C + C
    omega

/-- A rectangle of a whole buffer, seen as a view, covers the rectangle's elements. -/
theorem mem_slice_whole {sig : RefSig} {κ : Kind} {b : Ref sig κ} {r : Rect b.ty.shape} {i : b.ty.shape.Idx}
    (h : i ∈ r.set) : i ∈ ((View.whole b).slice r).set := by
  rwa [View.set_slice_whole]

end Cert.Val
-- ==== Proof.Val.Arr0.lean ====
/- The first linear layer's array after its region: the row tiles' products, each written back at its rows,
   make the whole product  x · W1. -/
import proofs.«410560_j10393820857081_1_alg».proof.Proof.KI.R0
import proofs.«410560_j10393820857081_1_alg».proof.Proof.Val.Matmul
import proofs.«410560_j10393820857081_1_alg».proof.Proof.Val.Tile

noncomputable section

namespace Cert.KernelIdeal.Rg

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Val

variable (V : (c : Dev nD) → (b : Ref sig .tc) → Buf (Elt Ideal) ((c : Thread nD τ).loc b))

theorem idx0 : ∀ t : Fin cfg0.N,
    win0_0.index t = ![t.val, 0] ∧ (win0_1.index t = fun _ => 0) ∧ win0_2.index t = ![t.val, 0] :=
  (by decide +kernel : ∀ t : Fin grid0.N, _)

/-- What point t writes back is block t of the whole product: both are the sum over the 128 inner indices. -/
theorem flushed0_eq (c : Dev nD) (t : Fin cfg0.N) :
    (dat0 V c).flushed 2 t = ((cfg0.win 2).blk t).view.read (Elt Ideal)
      (Cert.Spec.lin1 (F := Ideal) (V c main_arg0) (V c main_arg4)) := by
  obtain ⟨e0, e1, e2⟩ := idx0 t
  show (cfg0.win 2).cut (grid0.coords t) ((dat0 V c).after 2 t) = _
  rw [after0_2, out0_2, View.canon_unit_zero hz2, View.ld_unit_zero hz2, View.ld_unit_zero hz2]
  funext j
  obtain ⟨r, q, rfl⟩ : ∃ (r : Fin 5000) (q : Fin 128), j = ix2 r q := ⟨j 0, j 1, eq_ix2 j⟩
  obtain ⟨hr, e⟩ : ∃ hr, ((cfg0.win 2).blk t).view.emb (ix2 r q) = ix2 (⟨t.val * 5000 + r, hr⟩ : Fin 50000) q :=
    emb_rowTile e2 r q
  show k0_pay1 (F := Ideal) _ _ (ix2 r q) = Cert.Spec.lin1 (F := Ideal) _ _ (((cfg0.win 2).blk t).view.emb (ix2 r q))
  rw [e, pay0_apply, lin1_apply]
  exact Finset.sum_congr rfl fun k _ => congrArg₂ (· * ·)
    (congrArg (V c main_arg0) ((emb_rowTile e0 r k).elim fun _ h => h)) (congrArg (V c main_arg4) (emb_origin e1 _))

/-- Row r is written at point r / 5000. -/
theorem cover0 (i : S50000x128.Idx) :
    ∃ t : Fin cfg0.N, (cfg0.win 2).flush t = true ∧ i ∈ ((cfg0.win 2).blk t).view.set :=
  have ht : (i 0).val / 5000 < cfg0.N := by have := idx2_lt0 i; rw [show cfg0.N = 10 from N_0]; omega
  ⟨⟨_, ht⟩, flush0_2 _, mem_slice_whole (mem_rowTile (by decide) i (idx0 _).2.2)⟩

theorem arr0 (c : Dev nD) : (dat0 V c).arrAt 2 cfg0.N = Cert.Spec.lin1 (F := Ideal) (V c main_arg0) (V c main_arg4) :=
  (dat0 V c).arrAt_eq_of_cover 2 _ (fun t _ => flushed0_eq V c t) cover0

end Cert.KernelIdeal.Rg

end
-- ==== Proof.Val.BiasRelu.lean ====
/- The bias-and-rectifier step read at an element, on both sides: max (a (r, q) + b q) 0, the zero kept as
   its word. -/
import proofs.«410560_j10393820857081_1_alg».proof.Proof.Gen.KernelIdeal.Skeleton
import proofs.«410560_j10393820857081_1_alg».proof.Proof.Spec
import Idealize.ShloMosaic.Lib.ValueLayout
import Idealize.ShloMosaic.Lib.IdealHost
import Idealize.ShloMosaic.Lib.KernelVsHost

noncomputable section

namespace Cert.Val

open Idealize.ShloMosaic Idealize.ShloMosaic.ValueIdx

/-- The kernel's step on a tile of m rows: the bias, cast to one row, is repeated over the rows. -/
theorem biasReluTile_apply {m n : Nat} (b : FVec Ideal ⟨1, ![n]⟩ .f32) (a : FVec Ideal ⟨2, ![m, n]⟩ .f32)
    (h1 : (⟨1, ![n]⟩ : Shape).ShapeCasts ⟨2, ![1, n]⟩) (h2 : (⟨2, ![1, n]⟩ : Shape).ShapeCasts ⟨2, ![1, n]⟩)
    (hb : (⟨2, ![1, n]⟩ : Shape).Broadcasts ⟨2, ![m, n]⟩) (hs : (⟨2, ![m, n]⟩ : Shape).ShapeCasts ⟨2, ![m, n]⟩)
    (z : Ideal .f32) (r : Fin m) (q : Fin n) :
    maximumf (addf (shapeCast ⟨2, ![m, n]⟩ a hs)
        (broadcastTo ⟨2, ![m, n]⟩ (shapeCast ⟨2, ![1, n]⟩ (shapeCast ⟨2, ![1, n]⟩ b h1) h2) hb))
      (broadcast ⟨2, ![m, n]⟩ z) (ix2 r q) = max (a (ix2 r q) + b (ix1 q)) z := by
  refine congrArg₂ max (congrArg₂ (· + ·) (congrFun (shapeCast_self a hs) _) ?_) rfl
  rw [broadcastTo_1b_ab_apply, shapeCast_self]
  exact shapeCast_a_1a_apply b h1 0 q

/-- The reference's step on N rows: the bias is placed along one row, the row down the rows, the zero everywhere. -/
theorem biasReluRef_apply {N n : Nat} (hn : n ≠ 1) (A : FVec Ideal ⟨2, ![N, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![N, n]⟩ ![0, 1])
    (h0 : (⟨0, ![]⟩ : Shape).BroadcastsInDim ⟨2, ![N, n]⟩ ![]) (z : FVec Ideal ⟨0, ![]⟩ .f32) (i : Fin N) (q : Fin n) :
    maximumf (addf A (broadcastInDim ⟨2, ![N, n]⟩ ![0, 1] h2 (broadcastInDim ⟨2, ![1, n]⟩ ![1] h1 b)))
      (broadcastInDim ⟨2, ![N, n]⟩ ![] h0 z) (ix2 i q) = max (A (ix2 i q) + b (ix1 q)) (z ix0) := by
  refine congrArg₂ max (congrArg₂ (· + ·) rfl ?_) (broadcastInDim_scalar_apply _ _ _)
  rw [broadcastInDim_oneRow_apply]
  refine broadcastInDim_apply ![1] h1 b _ (ix1 q) fun a => ?_
  match a with
  | ⟨0, _⟩ => exact (if_neg hn).symm

theorem pay1_apply (b : Vec Ideal Cert.KernelIdeal.S128 .f32) (a : Vec Ideal Cert.KernelIdeal.S5000x128 .f32)
    (r : Fin 5000) (q : Fin 128) :
    Cert.KernelIdeal.Gen.k1_pay1 (F := Ideal) b a (ix2 r q)
      = max (a (ix2 r q) + b (ix1 q)) (Ideal.ofBits .f32 0x00000000#32) :=
  biasReluTile_apply b a _ _ _ _ _ r q

theorem pay3_apply (b : Vec Ideal Cert.KernelIdeal.S64 .f32) (a : Vec Ideal Cert.KernelIdeal.S5000x64 .f32)
    (r : Fin 5000) (q : Fin 64) :
    Cert.KernelIdeal.Gen.k3_pay1 (F := Ideal) b a (ix2 r q)
      = max (a (ix2 r q) + b (ix1 q)) (Ideal.ofBits .f32 0x00000000#32) :=
  biasReluTile_apply b a _ _ _ _ _ r q

theorem biasRelu128_apply (A : (⟨Cert.ReferenceIdeal.S50000x128, .f32⟩ : BufTy).Contents (Elt Ideal))
    (b : (⟨Cert.ReferenceIdeal.S128, .f32⟩ : BufTy).Contents (Elt Ideal)) (n : Fin 50000) (q : Fin 128) :
    Cert.Spec.biasRelu128 (F := Ideal) A b (ix2 n q)
      = max (A (ix2 n q) + b (ix1 q)) (Ideal.ofBits .f32 0x00000000#32) :=
  biasReluRef_apply (by decide) A b _ _ _ _ n q

theorem biasRelu64_apply (A : (⟨Cert.ReferenceIdeal.S50000x64, .f32⟩ : BufTy).Contents (Elt Ideal))
    (b : (⟨Cert.ReferenceIdeal.S64, .f32⟩ : BufTy).Contents (Elt Ideal)) (n : Fin 50000) (q : Fin 64) :
    Cert.Spec.biasRelu64 (F := Ideal) A b (ix2 n q)
      = max (A (ix2 n q) + b (ix1 q)) (Ideal.ofBits .f32 0x00000000#32) :=
  biasReluRef_apply (by decide) A b _ _ _ _ n q

end Cert.Val

end
-- ==== Proof.Val.Arr1.lean ====
/- The first layer's bias-and-rectifier array after its region: the row tiles, biased and rectified, each
   written back at its rows, make the whole array  max (A + b) 0. -/
import proofs.«410560_j10393820857081_1_alg».proof.Proof.KI.R1
import proofs.«410560_j10393820857081_1_alg».proof.Proof.Val.BiasRelu
import proofs.«410560_j10393820857081_1_alg».proof.Proof.Val.Tile

noncomputable section

namespace Cert.KernelIdeal.Rg

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Val

variable (V : (c : Dev nD) → (b : Ref sig .tc) → Buf (Elt Ideal) ((c : Thread nD τ).loc b))

theorem idx1 : ∀ t : Fin cfg1.N,
    win1_0.index t = ![t.val, 0] ∧ (win1_1.index t = fun _ => 0) ∧ win1_2.index t = ![t.val, 0] :=
  (by decide +kernel : ∀ t : Fin grid1.N, _)

/-- What point t writes back is block t of the whole array: both read max (A (n, q) + b q) 0 at row n = 5000·t + r. -/
theorem flushed1_eq (c : Dev nD) (t : Fin cfg1.N) :
    (dat1 V c).flushed 2 t = ((cfg1.win 2).blk t).view.read (Elt Ideal)
      (Cert.Spec.biasRelu128 (F := Ideal) (V c main_v48) (V c main_arg5)) := by
  obtain ⟨e0, e1, e2⟩ := idx1 t
  show (cfg1.win 2).cut (grid1.coords t) ((dat1 V c).after 2 t) = _
  rw [after1_2, out1_2, View.canon_unit_zero hz2, View.ld_unit_zero hz1, View.ld_unit_zero hz2]
  funext j
  obtain ⟨r, q, rfl⟩ : ∃ (r : Fin 5000) (q : Fin 128), j = ix2 r q := ⟨j 0, j 1, eq_ix2 j⟩
  obtain ⟨hr, e⟩ : ∃ hr, ((cfg1.win 2).blk t).view.emb (ix2 r q) = ix2 (⟨t.val * 5000 + r, hr⟩ : Fin 50000) q :=
    emb_rowTile e2 r q
  show k1_pay1 (F := Ideal) _ _ (ix2 r q)
    = Cert.Spec.biasRelu128 (F := Ideal) _ _ (((cfg1.win 2).blk t).view.emb (ix2 r q))
  rw [e, pay1_apply, biasRelu128_apply]
  exact congrArg₂ (fun a b : EReal => max (a + b) _)
    (congrArg (V c main_v48) ((emb_rowTile e0 r q).elim fun _ h => h)) (congrArg (V c main_arg5) (emb_origin e1 _))

/-- Row r is written at point r / 5000. -/
theorem cover1 (i : S50000x128.Idx) :
    ∃ t : Fin cfg1.N, (cfg1.win 2).flush t = true ∧ i ∈ ((cfg1.win 2).blk t).view.set :=
  have ht : (i 0).val / 5000 < cfg1.N := by have := idx2_lt0 i; rw [show cfg1.N = 10 from N_1]; omega
  ⟨⟨_, ht⟩, flush1_2 _, mem_slice_whole (mem_rowTile (by decide) i (idx1 _).2.2)⟩

theorem arr1 (c : Dev nD) : (dat1 V c).arrAt 2 cfg1.N = Cert.Spec.biasRelu128 (F := Ideal) (V c main_v48) (V c main_arg5) :=
  (dat1 V c).arrAt_eq_of_cover 2 _ (fun t _ => flushed1_eq V c t) cover1

end Cert.KernelIdeal.Rg

end
-- ==== Proof.Val.Arr2.lean ====
/- The second linear layer's array after its region: the row tiles' products, each written back at its rows,
   make the whole product  h · W2. -/
import proofs.«410560_j10393820857081_1_alg».proof.Proof.KI.R2
import proofs.«410560_j10393820857081_1_alg».proof.Proof.Val.Matmul
import proofs.«410560_j10393820857081_1_alg».proof.Proof.Val.Tile

noncomputable section

namespace Cert.KernelIdeal.Rg

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Val

variable (V : (c : Dev nD) → (b : Ref sig .tc) → Buf (Elt Ideal) ((c : Thread nD τ).loc b))

theorem idx2 : ∀ t : Fin cfg2.N,
    win2_0.index t = ![t.val, 0] ∧ (win2_1.index t = fun _ => 0) ∧ win2_2.index t = ![t.val, 0] :=
  (by decide +kernel : ∀ t : Fin grid2.N, _)

/-- What point t writes back is block t of the whole product: both are the sum over the 128 inner indices. -/
theorem flushed2_eq (c : Dev nD) (t : Fin cfg2.N) :
    (dat2 V c).flushed 2 t = ((cfg2.win 2).blk t).view.read (Elt Ideal)
      (Cert.Spec.lin2 (F := Ideal) (V c main_v49) (V c main_arg6)) := by
  obtain ⟨e0, e1, e2⟩ := idx2 t
  show (cfg2.win 2).cut (grid2.coords t) ((dat2 V c).after 2 t) = _
  rw [after2_2, out2_2, View.canon_unit_zero hz2, View.ld_unit_zero hz2, View.ld_unit_zero hz2]
  funext j
  obtain ⟨r, q, rfl⟩ : ∃ (r : Fin 5000) (q : Fin 64), j = ix2 r q := ⟨j 0, j 1, eq_ix2 j⟩
  obtain ⟨hr, e⟩ : ∃ hr, ((cfg2.win 2).blk t).view.emb (ix2 r q) = ix2 (⟨t.val * 5000 + r, hr⟩ : Fin 50000) q :=
    emb_rowTile e2 r q
  show k2_pay1 (F := Ideal) _ _ (ix2 r q) = Cert.Spec.lin2 (F := Ideal) _ _ (((cfg2.win 2).blk t).view.emb (ix2 r q))
  rw [e, pay2_apply, lin2_apply]
  exact Finset.sum_congr rfl fun k _ => congrArg₂ (· * ·)
    (congrArg (V c main_v49) ((emb_rowTile e0 r k).elim fun _ h => h)) (congrArg (V c main_arg6) (emb_origin e1 _))

/-- Row r is written at point r / 5000. -/
theorem cover2 (i : S50000x64.Idx) :
    ∃ t : Fin cfg2.N, (cfg2.win 2).flush t = true ∧ i ∈ ((cfg2.win 2).blk t).view.set :=
  have ht : (i 0).val / 5000 < cfg2.N := by have := idx2_lt0 i; rw [show cfg2.N = 10 from N_2]; omega
  ⟨⟨_, ht⟩, flush2_2 _, mem_slice_whole (mem_rowTile (by decide) i (idx2 _).2.2)⟩

theorem arr2 (c : Dev nD) : (dat2 V c).arrAt 2 cfg2.N = Cert.Spec.lin2 (F := Ideal) (V c main_v49) (V c main_arg6) :=
  (dat2 V c).arrAt_eq_of_cover 2 _ (fun t _ => flushed2_eq V c t) cover2

end Cert.KernelIdeal.Rg

end
-- ==== Proof.Val.Arr3.lean ====
/- The second layer's bias-and-rectifier array after its region: the row tiles, biased and rectified, each
   written back at its rows, make the whole array  max (A + b) 0. -/
import proofs.«410560_j10393820857081_1_alg».proof.Proof.KI.R3
import proofs.«410560_j10393820857081_1_alg».proof.Proof.Val.BiasRelu
import proofs.«410560_j10393820857081_1_alg».proof.Proof.Val.Tile

noncomputable section

namespace Cert.KernelIdeal.Rg

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Val

variable (V : (c : Dev nD) → (b : Ref sig .tc) → Buf (Elt Ideal) ((c : Thread nD τ).loc b))

theorem idx3 : ∀ t : Fin cfg3.N,
    win3_0.index t = ![t.val, 0] ∧ (win3_1.index t = fun _ => 0) ∧ win3_2.index t = ![t.val, 0] :=
  (by decide +kernel : ∀ t : Fin grid3.N, _)

/-- What point t writes back is block t of the whole array: both read max (A (n, q) + b q) 0 at row n = 5000·t + r. -/
theorem flushed3_eq (c : Dev nD) (t : Fin cfg3.N) :
    (dat3 V c).flushed 2 t = ((cfg3.win 2).blk t).view.read (Elt Ideal)
      (Cert.Spec.biasRelu64 (F := Ideal) (V c main_v63) (V c main_arg7)) := by
  obtain ⟨e0, e1, e2⟩ := idx3 t
  show (cfg3.win 2).cut (grid3.coords t) ((dat3 V c).after 2 t) = _
  rw [after3_2, out3_2, View.canon_unit_zero hz2, View.ld_unit_zero hz1, View.ld_unit_zero hz2]
  funext j
  obtain ⟨r, q, rfl⟩ : ∃ (r : Fin 5000) (q : Fin 64), j = ix2 r q := ⟨j 0, j 1, eq_ix2 j⟩
  obtain ⟨hr, e⟩ : ∃ hr, ((cfg3.win 2).blk t).view.emb (ix2 r q) = ix2 (⟨t.val * 5000 + r, hr⟩ : Fin 50000) q :=
    emb_rowTile e2 r q
  show k3_pay1 (F := Ideal) _ _ (ix2 r q)
    = Cert.Spec.biasRelu64 (F := Ideal) _ _ (((cfg3.win 2).blk t).view.emb (ix2 r q))
  rw [e, pay3_apply, biasRelu64_apply]
  exact congrArg₂ (fun a b : EReal => max (a + b) _)
    (congrArg (V c main_v63) ((emb_rowTile e0 r q).elim fun _ h => h)) (congrArg (V c main_arg7) (emb_origin e1 _))

/-- Row r is written at point r / 5000. -/
theorem cover3 (i : S50000x64.Idx) :
    ∃ t : Fin cfg3.N, (cfg3.win 2).flush t = true ∧ i ∈ ((cfg3.win 2).blk t).view.set :=
  have ht : (i 0).val / 5000 < cfg3.N := by have := idx2_lt0 i; rw [show cfg3.N = 10 from N_3]; omega
  ⟨⟨_, ht⟩, flush3_2 _, mem_slice_whole (mem_rowTile (by decide) i (idx3 _).2.2)⟩

theorem arr3 (c : Dev nD) : (dat3 V c).arrAt 2 cfg3.N = Cert.Spec.biasRelu64 (F := Ideal) (V c main_v63) (V c main_arg7) :=
  (dat3 V c).arrAt_eq_of_cover 2 _ (fun t _ => flushed3_eq V c t) cover3

end Cert.KernelIdeal.Rg

end
-- ==== Proof.Val.PoolDefs.lean ====
/- The pooling step's blocks and running sums: the id column and the feature array cut into ten blocks of 5000 rows, and the
   two accumulators after the first n+1 blocks. -/
import proofs.«410560_j10393820857081_1_alg».proof.Proof.Gen.KernelIdeal
import proofs.«410560_j10393820857081_1_alg».proof.Proof.Gen.KernelIdeal.Skeleton
import Idealize.ShloMosaic.Lib.ValueIdx

noncomputable section

namespace Cert.Val

open Idealize.ShloMosaic Idealize.ShloMosaic.ValueIdx

/-- Rows 5000 t … 5000 t + 4999 of the id column. -/
def tileI (B : Vec Ideal Cert.KernelIdeal.S50000x1 .i32) (t : Fin 10) : Vec Ideal Cert.KernelIdeal.S5000x1 .i32 :=
  fun y => B (ix2 (⟨t.val * 5000 + (y 0).val, by have := idx2_lt0 y; have := t.isLt; omega⟩ : Fin 50000) (y 1 : Fin 1))

/-- The same rows of the feature array. -/
def tileF (X : Vec Ideal Cert.KernelIdeal.S50000x64 .f32) (t : Fin 10) : Vec Ideal Cert.KernelIdeal.S5000x64 .f32 :=
  fun y => X (ix2 (⟨t.val * 5000 + (y 0).val, by have := idx2_lt0 y; have := t.isLt; omega⟩ : Fin 50000) (y 1 : Fin 64))

/-- The block a grid point reads: its number modulo ten. -/
def pt (n : ℕ) : Fin 10 := ⟨n % 10, Nat.mod_lt _ (by decide)⟩

/-- Per-graph sums after blocks 0 … n: each block's one-hot product added to the sums so far, from zero. -/
def sFold (B : Vec Ideal Cert.KernelIdeal.S50000x1 .i32) (X : Vec Ideal Cert.KernelIdeal.S50000x64 .f32) :
    ℕ → Vec Ideal Cert.KernelIdeal.S64x64 .f32
  | 0 => Cert.KernelIdeal.Gen.k4_pay4 (F := Ideal) (tileI B (pt 0)) (tileF X (pt 0)) (Cert.KernelIdeal.Gen.k4_pay1 (F := Ideal))
  | n+1 => Cert.KernelIdeal.Gen.k4_pay4 (F := Ideal) (tileI B (pt (n+1))) (tileF X (pt (n+1))) (sFold B X n)

/-- Per-graph counts after blocks 0 … n: each block's one-hot column sums added to the counts so far, from zero. -/
def cFold (B : Vec Ideal Cert.KernelIdeal.S50000x1 .i32) : ℕ → Vec Ideal Cert.KernelIdeal.S64x1 .f32
  | 0 => Cert.KernelIdeal.Gen.k4_pay5 (F := Ideal) (tileI B (pt 0)) (Cert.KernelIdeal.Gen.k4_pay2 (F := Ideal))
  | n+1 => Cert.KernelIdeal.Gen.k4_pay5 (F := Ideal) (tileI B (pt (n+1))) (cFold B n)

end Cert.Val
-- ==== Proof.Val.Arr4.lean ====
/- The pooling region's output array after the region: point n reads row block n of the id column and of the features, so the
   accumulators are the running folds, and the last point's quotient is the whole array. -/
import proofs.«410560_j10393820857081_1_alg».proof.Proof.KI.R4
import proofs.«410560_j10393820857081_1_alg».proof.Proof.Val.PoolDefs
import proofs.«410560_j10393820857081_1_alg».proof.Proof.Val.Tile

noncomputable section

namespace Cert.KernelIdeal.Rg

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Val

variable (V : (c : Dev nD) → (b : Ref sig .tc) → Buf (Elt Ideal) ((c : Thread nD τ).loc b))

theorem idx4 : ∀ t : Fin cfg4.N, win4_0.index t = ![t.val, 0] ∧ win4_1.index t = ![t.val, 0] ∧ win4_2.index t = fun _ => 0 :=
  (by decide +kernel : ∀ t : Fin grid4.N, _)

theorem iblk4_0_eq (c : Dev nD) (n : ℕ) : iblk4 V c 0 (pt4 n) = tileI (V c main_v65) (pt n) := by
  funext y
  rw [eq_ix2 y]
  exact congrArg (V c main_v65) (emb_rowTile (idx4 (pt4 n)).1 (y 0) (y 1)).choose_spec

theorem iblk4_1_eq (c : Dev nD) (n : ℕ) : iblk4 V c 1 (pt4 n) = tileF (V c main_v64) (pt n) := by
  funext y
  rw [eq_ix2 y]
  exact congrArg (V c main_v64) (emb_rowTile (idx4 (pt4 n)).2.1 (y 0) (y 1)).choose_spec

/-- The sums' accumulator after point n is the running fold over the first n + 1 row blocks. -/
theorem sAt4_eq (c : Dev nD) : ∀ n : ℕ, sAt4 V c n = sFold (V c main_v65) (V c main_v64) n
  | 0 => by rw [sAt4_zero, iblk4_0_eq, iblk4_1_eq]; rfl
  | n + 1 => by rw [sAt4_succ, iblk4_0_eq, iblk4_1_eq, sAt4_eq c n]; rfl

theorem cAt4_eq (c : Dev nD) : ∀ n : ℕ, cAt4 V c n = cFold (V c main_v65) n
  | 0 => by rw [cAt4_zero, iblk4_0_eq]; rfl
  | n + 1 => by rw [cAt4_succ, iblk4_0_eq, cAt4_eq c n]; rfl

/-- The pooled array after the region: sums over max(counts, 1), both folded over all ten row blocks. -/
theorem arr4 (c : Dev nD) : (dat4 V c).arrAt 2 cfg4.N
    = Cert.KernelIdeal.Gen.k4_pay6 (F := Ideal) (Cert.Val.sFold (V c main_v65) (V c main_v64) 9) (Cert.Val.cFold (V c main_v65) 9) := by
  have hN : cfg4.N = 10 := N_4
  refine (dat4 V c).arrAt_eq_of_cover 2 _ (fun t hf => ?_) fun i => ⟨⟨9, by omega⟩, (flush4_2 _).mpr rfl,
    mem_slice_whole (View.mem_set_unit_zero (by rw [(idx4 _).2.2]; exact funext fun a => Nat.zero_mul _) _ i)⟩
  have h9 : t.val = 9 := by have := (flush4_2 t).mp hf; have := t.isLt; omega
  show (cfg4.win 2).cut (grid4.coords t) ((dat4 V c).after 2 t) = _
  rw [after4_2, h9, sAt4_eq, cAt4_eq]
  unfold out4_2
  rw [View.canon_unit_zero hz4]
  simp only [View.ld_unit_zero (S := S64x64) hz4, View.ld_unit_zero (S := S64x1) hz4]
  exact funext fun j => (congrArg (k4_pay6 (F := Ideal) _ _) (emb_origin (idx4 t).2.2 j)).symm

end Cert.KernelIdeal.Rg

end
-- ==== Proof.Val.Head.lean ====
/- The network's head at the ideal values: the kernel's payload and the reference's composition are one array,
   each kernel operation (product into zero, spreading cast or broadcast, reduction over the classes) being the host's. -/
import proofs.«410560_j10393820857081_1_alg».proof.Proof.Gen.KernelIdeal.Skeleton
import proofs.«410560_j10393820857081_1_alg».proof.Proof.Spec
import Idealize.ShloMosaic.Lib.KernelVsHost
import Idealize.ShloMosaic.Lib.ValueLayout

noncomputable section

namespace Cert.Val

open Idealize.ShloMosaic Idealize.ShloMosaic.ValueIdx

variable {α : Type}

theorem val_eq_ite {n : Nat} (q : Fin n) : q.val = if n = 1 then 0 else q.val := by split <;> omega

/-- A broadcast between matrices is the placement on the axes in order. -/
theorem broadcastTo_eq_broadcastInDim {s t : Fin 2 → Nat} (u : (⟨2, s⟩ : Shape).Idx → α)
    (hb : (⟨2, s⟩ : Shape).Broadcasts ⟨2, t⟩) (g : (⟨2, s⟩ : Shape).BroadcastsInDim ⟨2, t⟩ ![0, 1]) :
    broadcastTo ⟨2, t⟩ u hb = broadcastInDim ⟨2, t⟩ ![0, 1] g u := by
  funext j
  unfold broadcastTo broadcastInDim
  refine congrArg u (funext fun a => ?_)
  fin_cases a <;> rfl

/-- A vector cast to one row is the vector placed on the row's axis 1. -/
theorem shapeCast_row_eq {n : Nat} (x : (⟨1, ![n]⟩ : Shape).Idx → α) (h : (⟨1, ![n]⟩ : Shape).ShapeCasts ⟨2, ![1, n]⟩)
    (g : (⟨1, ![n]⟩ : Shape).BroadcastsInDim ⟨2, ![1, n]⟩ ![1]) :
    shapeCast ⟨2, ![1, n]⟩ x h = broadcastInDim ⟨2, ![1, n]⟩ ![1] g x := by
  funext j
  obtain ⟨u, q, rfl⟩ : ∃ (u : Fin 1) (q : Fin n), j = ix2 u q := ⟨j 0, j 1, eq_ix2 j⟩
  refine (shapeCast_a_1a_apply x h u q).trans (broadcastInDim_apply ![1] g x _ (ix1 q) fun a => ?_).symm
  match a with
  | ⟨0, _⟩ => exact val_eq_ite q

/-- A vector cast to one column is the vector placed on the column's axis 0. -/
theorem shapeCast_col_eq {n : Nat} (x : (⟨1, ![n]⟩ : Shape).Idx → α) (h : (⟨1, ![n]⟩ : Shape).ShapeCasts ⟨2, ![n, 1]⟩)
    (g : (⟨1, ![n]⟩ : Shape).BroadcastsInDim ⟨2, ![n, 1]⟩ ![0]) :
    shapeCast ⟨2, ![n, 1]⟩ x h = broadcastInDim ⟨2, ![n, 1]⟩ ![0] g x := by
  funext j
  obtain ⟨i, u, rfl⟩ : ∃ (i : Fin n) (u : Fin 1), j = ix2 i u := ⟨j 0, j 1, eq_ix2 j⟩
  refine (shapeCast_apply x h _ (ix1 i) ?_).trans (broadcastInDim_apply ![0] g x _ (ix1 i) fun a => ?_).symm
  · rw [Shape.rowMajor_val_two, Shape.rowMajor_val_one]
    show i.val = i.val * 1 + u.val
    omega
  · match a with
    | ⟨0, _⟩ => exact val_eq_ite i

/-- A product into the zero array is the host's product, at whatever precision either is asked for. -/
theorem matmul_zero_eq_hostDot {sl sr so : Shape} {φ₁ φ₂ : FTy} (d : DotDims sl sr so) (p : Option ContractPrecision)
    (x : FVec Ideal sl φ₁) (w : FVec Ideal sr φ₂) :
    matmul d p x w (constant so .f32 0x00000000#32) = Host.dotGeneral d none x w :=
  funext fun j => (Ideal.matmul_constant_zero_apply d p x w j).trans (Ideal.dotGeneral_apply d none _ x w j).symm

/-- A kernel's maximum over one axis is the host's from the same start. -/
theorem multiReduction_maximumf_eq_hostReduce {s t u : Shape} {φ : FTy} {a : Fin s.rank} (src : FVec Ideal s φ)
    (acc : BitVec φ.bits) (h : s.Reduces [a] t) (hφ : FKind.Formats φ) (hacc : acc = FKind.maximumf.neutral φ hφ)
    (h' : s.ReducesTo [a] t) (hu : 0 < u.numel) :
    multiReduction .maximumf [a] t src acc h hφ hacc
      = Host.reduce FloatOps.maximumf src (constant (F := Ideal) u φ acc) h' hu :=
  funext fun j => (Ideal.multiReduction_maximumf_single src acc h hφ hacc j).trans
    (Host.reduce_eq_fold_single FloatOps.maximumf src (constant u φ acc) h' h hu j).symm

section
open Cert.ReferenceIdeal Cert.ReferenceIdeal.Facts₀ Cert.ReferenceIdeal.Facts

/-- The kernel's payload is the reference's two-layer perceptron with log-softmax. -/
theorem head_eq (x2 : Vec Ideal Cert.KernelIdeal.S64x64 .f32) (w1 : Vec Ideal Cert.KernelIdeal.S64x128 .f32)
    (b1 : Vec Ideal Cert.KernelIdeal.S128 .f32) (w2 : Vec Ideal Cert.KernelIdeal.S128x2 .f32)
    (b2 : Vec Ideal Cert.KernelIdeal.S2 .f32) :
    Cert.KernelIdeal.Gen.k5_pay1 (F := Ideal) x2 w1 b1 w2 b2 = Cert.Spec.head (F := Ideal) x2 w1 b1 w2 b2 := by
  unfold Cert.KernelIdeal.Gen.k5_pay1 Cert.Spec.head
  simp only [shapeCast_self, matmul_zero_eq_hostDot, broadcastInDim_constant,
    broadcastTo_eq_broadcastInDim _ _ bcast_S1x128_S64x128_0_1, broadcastTo_eq_broadcastInDim _ _ bcast_S1x2_S64x2_0_1,
    broadcastTo_eq_broadcastInDim _ _ bcast_S64x1_S64x2_0_1, shapeCast_row_eq _ _ bcast_S128_S1x128_1,
    shapeCast_row_eq _ _ bcast_S2_S1x2_1, shapeCast_col_eq _ _ bcast_S64_S64x1_0]
  erw [multiReduction_maximumf_eq_hostReduce _ _ _ _ _ reducesTo_S64x2_S64_d1 h_S_,
    multiReduction_add_eq_hostReduceAdd _ _ _ _ _ (constant (F := Ideal) S_ .f32 0x00000000#32)
      reducesTo_S64x2_S64_d1 h_S_ Ideal.ofBits_zero_f32]
  rfl

end

end Cert.Val

end
-- ==== Proof.Val.Arr5.lean ====
/- The head's array after its region: the region has one grid point and every block is its whole array, so what the region
   leaves is the specification's head of the five arrays. -/
import proofs.«410560_j10393820857081_1_alg».proof.Proof.KI.R5
import proofs.«410560_j10393820857081_1_alg».proof.Proof.Val.Head
import proofs.«410560_j10393820857081_1_alg».proof.Proof.Val.Tile

noncomputable section

namespace Cert.KernelIdeal.Rg

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Val

variable (V : (c : Dev nD) → (b : Ref sig .tc) → Buf (Elt Ideal) ((c : Thread nD τ).loc b))

theorem idx5 : ∀ t : Fin cfg5.N, (win5_0.index t = fun _ => 0) ∧ (win5_1.index t = fun _ => 0) ∧ (win5_2.index t = fun _ => 0)
    ∧ (win5_3.index t = fun _ => 0) ∧ (win5_4.index t = fun _ => 0) ∧ win5_5.index t = fun _ => 0 :=
  (by decide +kernel : ∀ t : Fin grid5.N, _)

/-- The head's output array after the region: the specification's head of the pooled features, weights and biases. -/
theorem arr5 (c : Dev nD) : (dat5 V c).arrAt 5 cfg5.N = Cert.Spec.head (F := Ideal) (V c main_v66) (V c main_arg8) (V c main_arg9) (V c main_arg10) (V c main_arg11) := by
  refine (dat5 V c).arrAt_eq_of_cover 5 _ (fun t _ => ?_) fun i => ⟨t5_0, flush5_5 _,
    mem_slice_whole (View.mem_set_unit_zero (by rw [(idx5 _).2.2.2.2.2]; exact funext fun a => Nat.zero_mul _) _ i)⟩
  obtain ⟨e0, e1, e2, e3, e4, e5⟩ := idx5 t
  have h0 : (iblk5 V c 0 t : Vec Ideal S64x64 .f32) = V c main_v66 := funext fun y => congrArg (V c main_v66) (emb_origin e0 y)
  have h1 : (iblk5 V c 1 t : Vec Ideal S64x128 .f32) = V c main_arg8 := funext fun y => congrArg (V c main_arg8) (emb_origin e1 y)
  have h2 : (iblk5 V c 2 t : Vec Ideal S128 .f32) = V c main_arg9 := funext fun y => congrArg (V c main_arg9) (emb_origin e2 y)
  have h3 : (iblk5 V c 3 t : Vec Ideal S128x2 .f32) = V c main_arg10 := funext fun y => congrArg (V c main_arg10) (emb_origin e3 y)
  have h4 : (iblk5 V c 4 t : Vec Ideal S2 .f32) = V c main_arg11 := funext fun y => congrArg (V c main_arg11) (emb_origin e4 y)
  show (cfg5.win 5).cut (grid5.coords t) ((dat5 V c).after 5 t) = _
  rw [after5_5]
  unfold out5_5
  rw [View.canon_unit_zero hz2]
  simp only [View.ld_unit_zero (S := S64x64) hz2, View.ld_unit_zero (S := S64x128) hz2, View.ld_unit_zero (S := S128) hz1,
    View.ld_unit_zero (S := S128x2) hz2, View.ld_unit_zero (S := S2) hz1]
  rw [h0, h1, h2, h3, h4, show ∀ G : Vec Ideal S64x2 .f32, ((cfg5.win 5).blk t).view.read (Elt Ideal) G = G from
    fun G => funext fun j => congrArg G (emb_origin e5 j)]
  exact head_eq _ _ _ _ _

end Cert.KernelIdeal.Rg

end
-- ==== Proof.Val.PoolRef.lean ====
/- The reference's per-graph mean read at an index. A scatter-add sums, at each operand index, the updates whose
   start index plus window coordinate is that index; here the start is the node's graph id read signed. -/
import proofs.«410560_j10393820857081_1_alg».proof.Proof.Gen.ReferenceIdeal
import proofs.«410560_j10393820857081_1_alg».proof.Proof.Spec
import Idealize.ShloMosaic.Lib.ValueIdx
import Idealize.ShloMosaic.Lib.ValueIdxRank1
import Idealize.ShloMosaic.Lib.Pipeline.Value
import Idealize.ShloMosaic.PureOps.Ideal.Laws
import Idealize.ShloMosaic.PureOps.IdealRules

noncomputable section

namespace Cert.Val

open Idealize.ShloMosaic Idealize.ShloMosaic.ValueIdx
open Cert.ReferenceIdeal Cert.ReferenceIdeal.Facts₀ Cert.ReferenceIdeal.Facts
open scoped BigOperators

/-- An update lands on `i` exactly when its start plus its window coordinate is `i`'s coordinate on every axis. -/
theorem poolRef_resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  by_cases hr : ∀ a, 0 ≤ d.start j idx a + d.window j a ∧ d.start j idx a + d.window j a < s.size a
  · rw [dif_pos hr, Option.some_inj, funext_iff]
    refine forall_congr' fun a => ?_
    rw [Fin.ext_iff]
    show (d.start j idx a + (d.window j a : ℤ)).toNat = (i a).val ↔ _
    have := hr a; omega
  · rw [dif_neg hr]
    refine iff_of_false (fun h => nomatch h) fun h => hr fun a => ?_
    have := h a; have := (i a).isLt; omega

/-- A scatter-add into zeros read at `i`: the updates that land on `i`, added up. -/
theorem poolRef_scatterAdd_apply {s si u : Shape} (d : ScatterDims s si u) (bc : S_.BroadcastsInDim s ![]) (idx : IVec si 32)
    (upd : FVec Ideal u .f32) (i : s.Idx) :
    Host.scatterAdd d (broadcastInDim s ![] bc (constant (F := Ideal) S_ .f32 0x00000000#32)) idx upd i
      = ∑ j, if d.resultIdx? j idx = some i then upd j else 0 := by
  show Ideal.ofBits .f32 0x00000000#32 + _ = _
  rw [Ideal.ofBits_zero_f32, zero_add, Finset.sum_filter]

/-- The update (n, f') lands on (g, f) exactly when f' = f and node n's id is g. -/
theorem poolRef_sc2_lands {w : Nat} (idx : IVec S50000x1 w) (n : Fin 50000) (f' g f : Fin 64) :
    scatter_S64x64_S50000x1_S50000x64_1_0_0_1.resultIdx? (ix2 n f') idx = some (ix2 g f) ↔ f' = f ∧ (idx (ix2 n (0 : Fin 1))).toInt = (g.val : ℤ) := by
  have hs : scatter_S64x64_S50000x1_S50000x64_1_0_0_1.siIdx (ix2 n f') ⟨0, by decide⟩ = ix2 n (0 : Fin 1) := Shape.idx_ext₂ rfl rfl
  rw [poolRef_resultIdx?_eq_some_iff]
  refine Fin.forall_fin_two.trans ?_
  show (idx (scatter_S64x64_S50000x1_S50000x64_1_0_0_1.siIdx (ix2 n f') ⟨0, by decide⟩)).toInt + ((0 : ℕ) : ℤ) = (g.val : ℤ) ∧ (0 : ℤ) + ((f'.val : ℕ) : ℤ) = (f.val : ℤ) ↔ _
  rw [hs, Fin.ext_iff]
  omega

/-- The update n lands on g exactly when node n's id is g. -/
theorem poolRef_sc1_lands {w : Nat} (idx : IVec S50000x1 w) (n : Fin 50000) (g : Fin 64) :
    scatter_S64_S50000x1_S50000_n_0_0_1.resultIdx? (ix1 n) idx = some (ix1 g) ↔ (idx (ix2 n (0 : Fin 1))).toInt = (g.val : ℤ) := by
  have hs : scatter_S64_S50000x1_S50000_n_0_0_1.siIdx (ix1 n) ⟨0, by decide⟩ = ix2 n (0 : Fin 1) := Shape.idx_ext₂ rfl rfl
  rw [poolRef_resultIdx?_eq_some_iff]
  refine Fin.forall_fin_one.trans ?_
  show (idx (scatter_S64_S50000x1_S50000_n_0_0_1.siIdx (ix1 n) ⟨0, by decide⟩)).toInt + ((0 : ℕ) : ℤ) = (g.val : ℤ) ↔ _
  rw [hs]
  omega

/-- The index array is the id column. -/
theorem poolRef_ids_apply (batch : (⟨S50000, .i32⟩ : BufTy).Contents (Elt Ideal)) (n : Fin 50000) :
    broadcastInDim S50000x1 ![0] bcast_S50000_S50000x1_0 batch (ix2 n (0 : Fin 1)) = batch (ix1 n) :=
  broadcastInDim_apply _ _ batch _ (ix1 n) (fun a => match a with | ⟨0, _⟩ => rfl)

theorem poolRef_one_f32 : Ideal.ofBits .f32 0x3F800000#32 = 1 := IdealRules.sign_bit.ideal_onePat .f32

theorem poolRef_hostDivf_apply {s : Shape} {φ : FTy} (x y : FVec Ideal s φ) (i : s.Idx) : Host.divf x y i = Ideal.div (x i) (y i) := rfl

/-- The pooled features at (g, f): the features of the nodes with id g added up, over their number or one. -/
theorem ref_pool_apply (X : (⟨Cert.ReferenceIdeal.S50000x64, .f32⟩ : BufTy).Contents (Elt Ideal)) (batch : (⟨Cert.ReferenceIdeal.S50000, .i32⟩ : BufTy).Contents (Elt Ideal)) (g f : Fin 64) :
    Cert.Spec.pool (F := Ideal) X batch (ix2 g f)
      = Ideal.div (∑ n : Fin 50000, if (batch (ix1 n)).toInt = (g.val : ℤ) then X (ix2 n f) else 0)
          (max (∑ n : Fin 50000, if (batch (ix1 n)).toInt = (g.val : ℤ) then (1 : EReal) else 0) 1) := by
  unfold Cert.Spec.pool
  refine (poolRef_hostDivf_apply _ _ _).trans (congrArg₂ Ideal.div ?_ ?_)
  · rw [poolRef_scatterAdd_apply, sum_idx2]
    refine Finset.sum_congr rfl fun n _ => ?_
    simp only [poolRef_sc2_lands, ite_and, Finset.sum_ite_eq', Finset.mem_univ, if_true]
    rw [poolRef_ids_apply]
  · refine (broadcastInDim_apply _ _ _ _ (ix2 g (0 : Fin 1)) (fun a => match a with | ⟨0, _⟩ => rfl | ⟨1, _⟩ => rfl)).trans ?_
    refine (broadcastInDim_apply _ _ _ _ (ix1 g) (fun a => match a with | ⟨0, _⟩ => rfl)).trans ?_
    refine congrArg₂ max ?_ poolRef_one_f32
    rw [poolRef_scatterAdd_apply, ← Equiv.sum_comp (idxEquiv1 (n := 50000)).symm]
    exact Finset.sum_congr rfl fun n _ => (if_congr (poolRef_sc1_lands _ n g) poolRef_one_f32 rfl).trans (by rw [poolRef_ids_apply])

end Cert.Val

end
-- ==== Proof.Val.Pool.lean ====
/- The per-graph mean on the kernel's side. Ten blocks of 5000 rows each add their one-hot product to the sums and
   their one-hot column sums to the counts; entry by entry the closing quotient is the reference's. -/
import proofs.«410560_j10393820857081_1_alg».proof.Proof.Val.PoolDefs
import proofs.«410560_j10393820857081_1_alg».proof.Proof.Val.PoolRef
import Idealize.ShloMosaic.Lib.ValueLayout
import Idealize.ShloMosaic.Lib.StackMember
import Idealize.ShloMosaic.Lib.StableHlo.Predicate

noncomputable section

namespace Cert.Val

open Idealize.ShloMosaic Idealize.ShloMosaic.ValueIdx Idealize.ShloMosaic.StableHlo.Predicate Cert.KernelIdeal Cert.KernelIdeal.Gen
open scoped BigOperators

/-- The one-hot entry: `1` when the id word, read signed, is the graph number, else `0`. -/
def poolHot (w : BitVec 32) (g : Fin 64) : EReal := if w.toInt = (g.val : ℤ) then 1 else 0

/-- Comparing a graph number's word with an id word gives the one-hot entry: the words agree exactly when the id reads as that number. -/
theorem pool_hot_word (w : BitVec 32) (g : Fin 64) :
    FloatOps.sitofp (F := Ideal) .f32 ((IntOp.cmpi .eq (BitVec.ofNat 32 g.val) w).setWidth 32) = poolHot w g := by
  have hg := toInt_ofNat_small g.val (by omega)
  by_cases h : BitVec.ofNat 32 g.val = w
  · rw [poolHot, cmpi_eq_iff.2 h, if_pos (h ▸ hg)]
    show (((1 : ℤ) : ℝ) : EReal) = 1
    rw [Int.cast_one, EReal.coe_one]
  · rw [poolHot, eq_zero_of_ne_one (mt cmpi_eq_iff.1 h), if_neg fun e => h (BitVec.eq_of_toInt_eq (hg.trans e.symm))]
    show (((0 : ℤ) : ℝ) : EReal) = 0
    rw [Int.cast_zero, EReal.coe_zero]

/-- The one-hot block at row `r`, column `g`. -/
theorem k4_pay3_apply (B : Vec Ideal S5000x1 .i32) (r : Fin 5000) (g : Fin 64) :
    k4_pay3 (F := Ideal) B (ix2 r g) = poolHot (B (ix2 r (0 : Fin 1))) g := by
  refine Eq.trans ?_ (pool_hot_word _ g)
  show FloatOps.sitofp (F := Ideal) .f32 ((IntOp.cmpi .eq (iota .tc S5000x64 32 [1] iota_S5000x64_d1_w32 (ix2 r g))
      (broadcastTo S5000x64 (shapeCast S5000x1 B shapeCasts_S5000x1_S5000x1) broadcasts_S5000x1_S5000x64 (ix2 r g))).setWidth 32) = _
  rw [iota_single_apply, shapeCast_self,
    broadcastTo_apply _ broadcasts_S5000x1_S5000x64 (ix2 r g) (ix2 r (0 : Fin 1)) (fun a => match a with | ⟨0, _⟩ => rfl | ⟨1, _⟩ => rfl)]

/-- One block's update of the sums: the one-hot column of `g` against the feature column `f`, added. -/
theorem k4_pay4_apply (B : Vec Ideal S5000x1 .i32) (X : Vec Ideal S5000x64 .f32)
    (s : Vec Ideal S64x64 .f32) (g f : Fin 64) :
    k4_pay4 (F := Ideal) B X s (ix2 g f)
      = s (ix2 g f) + ∑ r : Fin 5000, poolHot (B (ix2 r (0 : Fin 1))) g * X (ix2 r f) := by
  unfold k4_pay4
  rw [shapeCast_self, shapeCast_self, addf_apply]
  refine congrArg (s (ix2 g f) + ·) ((Ideal.matmul_constant_zero_apply _ _ _ _ _).trans ?_)
  refine (Ideal.dotGeneral_apply _ _ _ _ _ _).symm.trans ((StackMember.dotGeneral_plain_apply (some .fp32) _ X g f).trans ?_)
  exact Finset.sum_congr rfl fun r _ => by rw [transpose_ix2_apply, k4_pay3_apply]

/-- One block's update of the counts: the one-hot column of `g` summed, added. -/
theorem k4_pay5_apply (B : Vec Ideal S5000x1 .i32) (k : Vec Ideal S64x1 .f32) (g : Fin 64) :
    k4_pay5 (F := Ideal) B k (ix2 g (0 : Fin 1))
      = k (ix2 g (0 : Fin 1)) + ∑ r : Fin 5000, poolHot (B (ix2 r (0 : Fin 1))) g := by
  unfold k4_pay5
  rw [shapeCast_self, addf_apply, transpose_ix2_apply, shapeCast_a_1a_apply]
  refine congrArg (k (ix2 g (0 : Fin 1)) + ·) ((Ideal.multiReduction_add_single (k4_pay3 (F := Ideal) B) _
    reduces_S5000x64_S64 _ _ (ix1 g)).trans ?_)
  exact Finset.sum_congr rfl fun r _ =>
    (congrArg (k4_pay3 (F := Ideal) B) (Shape.idx_ext₂ rfl rfl)).trans (k4_pay3_apply B r g)

/-- Row `r` of block `t` is row `5000 t + r` of the whole array. -/
def poolRow (t : Fin 10) (r : Fin 5000) : Fin 50000 := ⟨t.val * 5000 + r.val, by have := t.isLt; have := r.isLt; omega⟩

/-- A running total that, from zero, takes in block `n mod 10` at step `n` has after ten steps taken in every row once. -/
theorem pool_blocks {M : Type*} [AddCommMonoid M] (F : Fin 50000 → M) (a : ℕ → M)
    (h0 : a 0 = 0 + ∑ r : Fin 5000, F (poolRow (pt 0) r))
    (hs : ∀ n, a (n + 1) = a n + ∑ r : Fin 5000, F (poolRow (pt (n + 1)) r)) : a 9 = ∑ n, F n := by
  have h : ∀ n, a n = ∑ t ∈ Finset.range (n + 1), ∑ r : Fin 5000, F (poolRow (pt t) r) := fun n => by
    induction n with
    | zero => rw [h0, zero_add, Finset.sum_range_one]
    | succ n ih => rw [hs, ih, Finset.sum_range_succ _ (n + 1)]
  refine (h 9).trans ((Finset.sum_range _).trans (Eq.trans ?_ (Equiv.sum_comp (finProdFinEquiv (m := 10) (n := 5000)) F)))
  rw [Fintype.sum_prod_type]
  refine Finset.sum_congr rfl fun t _ => Finset.sum_congr rfl fun r _ => congrArg F (Fin.ext ?_)
  show t.val % 10 * 5000 + r.val = r.val + 5000 * t.val
  have := t.isLt; omega

/-- The accumulated sums over the accumulated counts are the reference's per-graph mean. -/
theorem pool_eq (batch : (⟨Cert.ReferenceIdeal.S50000, .i32⟩ : BufTy).Contents (Elt Ideal))
    (X : (⟨Cert.ReferenceIdeal.S50000x64, .f32⟩ : BufTy).Contents (Elt Ideal)) :
    Cert.KernelIdeal.Gen.k4_pay6 (F := Ideal)
        (sFold (shapeCast Cert.KernelIdeal.S50000x1 batch Cert.KernelIdeal.Facts₀.shapeCasts_S50000_S50000x1) X 9)
        (cFold (shapeCast Cert.KernelIdeal.S50000x1 batch Cert.KernelIdeal.Facts₀.shapeCasts_S50000_S50000x1) 9)
      = Cert.Spec.pool (F := Ideal) X batch := by
  funext i
  obtain ⟨g, f, rfl⟩ : ∃ (g f : Fin 64), i = ix2 g f := ⟨i 0, i 1, eq_ix2 i⟩
  have hid : ∀ n : Fin 50000, shapeCast S50000x1 batch Facts₀.shapeCasts_S50000_S50000x1 (ix2 n (0 : Fin 1)) = batch (ix1 n) :=
    fun n => shapeCast_apply batch _ _ (ix1 n) (by
      rw [Shape.rowMajor_val_one, Shape.rowMajor_val_two]; show n.val = n.val * 1 + 0; omega)
  generalize shapeCast S50000x1 batch _ = B at hid ⊢
  unfold k4_pay6
  rw [ref_pool_apply, divf_apply, broadcastTo_apply _ broadcasts_S64x1_S64x64 (ix2 g f) (ix2 g (0 : Fin 1))
    (fun a => match a with | ⟨0, _⟩ => rfl | ⟨1, _⟩ => rfl), maximumf_apply, broadcast_apply]
  refine congrArg₂ Ideal.div ?_ (congrArg₂ max ?_ poolRef_one_f32)
  · refine (pool_blocks (fun n => poolHot (B (ix2 n (0 : Fin 1))) g * X (ix2 n f)) (fun n => sFold B X n (ix2 g f))
      ((k4_pay4_apply _ _ _ g f).trans (congrArg (· + _) Ideal.ofBits_zero_f32)) fun n => k4_pay4_apply _ _ _ g f).trans ?_
    exact Finset.sum_congr rfl fun n _ => by rw [hid, poolHot, boole_mul]
  · refine (pool_blocks (fun n => poolHot (B (ix2 n (0 : Fin 1))) g) (fun n => cFold B n (ix2 g (0 : Fin 1)))
      ((k4_pay5_apply _ _ g).trans (congrArg (· + _) Ideal.ofBits_zero_f32)) fun n => k4_pay5_apply _ _ g).trans ?_
    exact Finset.sum_congr rfl fun n _ => by rw [hid]; rfl

end Cert.Val
-- ==== Proof.Val.Chain.lean ====
/- The kernel program's result array after its run, read back through the run's boundaries: each host stretch and each
   region's output array is the reference's step of the same inputs, and what a step only reads is carried unchanged. -/
import proofs.«410560_j10393820857081_1_alg».proof.Proof.KI.Run
import proofs.«410560_j10393820857081_1_alg».proof.Proof.Spec
import proofs.«410560_j10393820857081_1_alg».proof.Proof.Val.Arr0
import proofs.«410560_j10393820857081_1_alg».proof.Proof.Val.Arr1
import proofs.«410560_j10393820857081_1_alg».proof.Proof.Val.Arr2
import proofs.«410560_j10393820857081_1_alg».proof.Proof.Val.Arr3
import proofs.«410560_j10393820857081_1_alg».proof.Proof.Val.Arr4
import proofs.«410560_j10393820857081_1_alg».proof.Proof.Val.Arr5
import proofs.«410560_j10393820857081_1_alg».proof.Proof.Val.Pool
import Idealize.ShloMosaic.Lib.StableHlo.Run

noncomputable section

namespace Cert.KernelIdeal.Rg

open Idealize.ShloMosaic Idealize.ShloMosaic.TcCoe
open Idealize.SL Idealize.SL.Sem
open Cert.KernelIdeal Cert.KernelIdeal.Gen

/-! The host stretches, over any contents before them: each is the same composition of host operations as the reference's. -/
section Stretches

variable {F : FTy → Type} [FloatOps F]

set_option maxHeartbeats 0 in
theorem pre_row (W : Valuation τ sig (Elt F)) :
    StableHlo.after hostOps0_4 (StableHlo.after hostOps0_3 (StableHlo.after hostOps0_2 (StableHlo.after hostOps0_1 (StableHlo.after hostOps0 W)))) (Proc.devRef .tc main_v5)
      = Cert.Spec.rowIdx (F := F) (W (Proc.devRef .tc main_arg1)) := by
  after_results_simp <;> rfl
set_option maxHeartbeats 0 in
theorem pre_col (W : Valuation τ sig (Elt F)) :
    StableHlo.after hostOps0_4 (StableHlo.after hostOps0_3 (StableHlo.after hostOps0_2 (StableHlo.after hostOps0_1 (StableHlo.after hostOps0 W)))) (Proc.devRef .tc main_v6)
      = Cert.Spec.colIdx (F := F) (W (Proc.devRef .tc main_arg1)) := by
  after_results_simp <;> rfl
set_option maxHeartbeats 0 in
theorem pre_norm (W : Valuation τ sig (Elt F)) :
    StableHlo.after hostOps0_4 (StableHlo.after hostOps0_3 (StableHlo.after hostOps0_2 (StableHlo.after hostOps0_1 (StableHlo.after hostOps0 W)))) (Proc.devRef .tc main_v34)
      = Cert.Spec.norm (F := F) (W (Proc.devRef .tc main_arg1)) (W (Proc.devRef .tc main_arg2)) := by
  after_results_simp <;> rfl

theorem stretch1 (W : Valuation τ sig (Elt F)) (ei : Vec F S2x1600000 .i32) (ea : Vec F S1600000 .f32)
    (h5 : W (Proc.devRef .tc main_v5) = Cert.Spec.rowIdx (F := F) ei) (h6 : W (Proc.devRef .tc main_v6) = Cert.Spec.colIdx (F := F) ei)
    (h34 : W (Proc.devRef .tc main_v34) = Cert.Spec.norm (F := F) ei ea) :
    StableHlo.after hostOps1 W (Proc.devRef .tc main_v48) = Cert.Spec.agg128 (F := F) ei ea (W (Proc.devRef .tc main_v35)) := by
  after_results_simp <;> (try rw [h5, h6, h34]) <;> rfl

theorem stretch3 (W : Valuation τ sig (Elt F)) (ei : Vec F S2x1600000 .i32) (ea : Vec F S1600000 .f32)
    (h5 : W (Proc.devRef .tc main_v5) = Cert.Spec.rowIdx (F := F) ei) (h6 : W (Proc.devRef .tc main_v6) = Cert.Spec.colIdx (F := F) ei)
    (h34 : W (Proc.devRef .tc main_v34) = Cert.Spec.norm (F := F) ei ea) :
    StableHlo.after hostOps3 W (Proc.devRef .tc main_v63) = Cert.Spec.agg64 (F := F) ei ea (W (Proc.devRef .tc main_v50)) := by
  after_results_simp <;> (try rw [h5, h6, h34]) <;> rfl

theorem stretch4 (W : Valuation τ sig (Elt F)) :
    StableHlo.after hostOps4 W (Proc.devRef .tc main_v65) = shapeCast S50000x1 (W (Proc.devRef .tc main_arg3)) shapeCasts_S50000_S50000x1 := by
  after_results_simp <;> rfl

end Stretches

section Chain

variable (m : (ℓ : Loc nD τ sig) → Buf (Elt Ideal) ℓ) (ρ : Dev nD → PrngReg) (c : Dev nD)

/-- A buffer's launch contents on core c. -/
abbrev arg (r : Ref sig .tc) : Buf (Elt Ideal) ((c : Thread nD τ).loc r) := m ((c : Thread nD τ).loc r)

/-- The network's stages as functions of the launch arguments: the two layers (product, neighbourhood sum, bias and
    rectifier each), and the whole network. -/
abbrev prod1 := Cert.Spec.lin1 (F := Ideal) (arg m c main_arg0) (arg m c main_arg4)
abbrev sum1 := Cert.Spec.agg128 (F := Ideal) (arg m c main_arg1) (arg m c main_arg2) (prod1 m c)
abbrev act1 := Cert.Spec.biasRelu128 (F := Ideal) (sum1 m c) (arg m c main_arg5)
abbrev prod2 := Cert.Spec.lin2 (F := Ideal) (act1 m c) (arg m c main_arg6)
abbrev sum2 := Cert.Spec.agg64 (F := Ideal) (arg m c main_arg1) (arg m c main_arg2) (prod2 m c)
abbrev feat : Vec Ideal Cert.ReferenceIdeal.S50000x64 .f32 := Cert.Spec.biasRelu64 (F := Ideal) (sum2 m c) (arg m c main_arg7)
abbrev net := Cert.Spec.model (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11)

theorem W5_row : W5 m ρ c (Proc.devRef .tc main_v5) = Cert.Spec.rowIdx (F := Ideal) (arg m c main_arg1) := pre_row (W0 m ρ c)
theorem W5_col : W5 m ρ c (Proc.devRef .tc main_v6) = Cert.Spec.colIdx (F := Ideal) (arg m c main_arg1) := pre_col (W0 m ρ c)
theorem W5_norm : W5 m ρ c (Proc.devRef .tc main_v34) = Cert.Spec.norm (F := Ideal) (arg m c main_arg1) (arg m c main_arg2) := pre_norm (W0 m ρ c)

/-- Carried from region 0's entry to region 2's exit by a buffer that region 0, the stretch after it and regions 1 and 2 leave alone. -/
theorem W9_carry (r : Ref sig .tc) (h6 : ∀ w, Pipeline.arrRef spec0 w = r → (cfg0.win w).isOut = false) (h7 : r ∉ hostOps1_W)
    (h8 : ∀ w, Pipeline.arrRef spec1 w = r → (cfg1.win w).isOut = false) (h9 : ∀ w, Pipeline.arrRef spec2 w = r → (cfg2.win w).isOut = false) :
    W9 m ρ c (Proc.devRef .tc r) = W5 m ρ c (Proc.devRef .tc r) :=
  (exitOf_kept m ρ 2 launch2 (W8 m ρ) (fun _ _ => rfl) c r h9).trans <| (exitOf_kept m ρ 1 launch1 (W7 m ρ) (fun _ _ => rfl) c r h8).trans <|
  (StableHlo.after_of_writes_sub hostOps1 _ hostOps1_writes h7).trans (exitOf_kept m ρ 0 launch0 (W5 m ρ) (fun _ _ => rfl) c r h6)

theorem W6_v35 : W6 m ρ c (Proc.devRef .tc main_v35) = prod1 m c :=
  (exitOf_arr m ρ 0 launch0 (W5 m ρ) c 2).trans <| (arr0 (V5 m ρ) c).trans <|
    congrArg₂ (Cert.Spec.lin1 (F := Ideal)) (kept_at m ρ c main_arg0 (by decide)).1 (kept_at m ρ c main_arg4 (by decide)).1

theorem W7_v48 : W7 m ρ c (Proc.devRef .tc main_v48) = sum1 m c :=
  (stretch1 (W6 m ρ c) (arg m c main_arg1) (arg m c main_arg2)
      ((exitOf_kept m ρ 0 launch0 (W5 m ρ) (fun _ _ => rfl) c main_v5 (by decide)).trans (W5_row m ρ c))
      ((exitOf_kept m ρ 0 launch0 (W5 m ρ) (fun _ _ => rfl) c main_v6 (by decide)).trans (W5_col m ρ c))
      ((exitOf_kept m ρ 0 launch0 (W5 m ρ) (fun _ _ => rfl) c main_v34 (by decide)).trans (W5_norm m ρ c))).trans
    (congrArg (Cert.Spec.agg128 (F := Ideal) (arg m c main_arg1) (arg m c main_arg2)) (W6_v35 m ρ c))

theorem W8_v49 : W8 m ρ c (Proc.devRef .tc main_v49) = act1 m c :=
  (exitOf_arr m ρ 1 launch1 (W7 m ρ) c 2).trans <| (arr1 (V7 m ρ) c).trans <|
    congrArg₂ (Cert.Spec.biasRelu128 (F := Ideal)) (W7_v48 m ρ c) (kept_at m ρ c main_arg5 (by decide)).2.1

theorem W9_v50 : W9 m ρ c (Proc.devRef .tc main_v50) = prod2 m c :=
  (exitOf_arr m ρ 2 launch2 (W8 m ρ) c 2).trans <| (arr2 (V8 m ρ) c).trans <|
    congrArg₂ (Cert.Spec.lin2 (F := Ideal)) (W8_v49 m ρ c) (kept_at m ρ c main_arg6 (by decide)).2.2.1

theorem W10_v63 : W10 m ρ c (Proc.devRef .tc main_v63) = sum2 m c :=
  (stretch3 (W9 m ρ c) (arg m c main_arg1) (arg m c main_arg2)
      ((W9_carry m ρ c main_v5 (by decide) (by decide) (by decide) (by decide)).trans (W5_row m ρ c))
      ((W9_carry m ρ c main_v6 (by decide) (by decide) (by decide) (by decide)).trans (W5_col m ρ c))
      ((W9_carry m ρ c main_v34 (by decide) (by decide) (by decide) (by decide)).trans (W5_norm m ρ c))).trans
    (congrArg (Cert.Spec.agg64 (F := Ideal) (arg m c main_arg1) (arg m c main_arg2)) (W9_v50 m ρ c))

theorem W11_v64 : W11 m ρ c (Proc.devRef .tc main_v64) = feat m c :=
  (exitOf_arr m ρ 3 launch3 (W10 m ρ) c 2).trans <| (arr3 (V10 m ρ) c).trans <|
    congrArg₂ (Cert.Spec.biasRelu64 (F := Ideal)) (W10_v63 m ρ c) (kept_at m ρ c main_arg7 (by decide)).2.2.2.1

theorem W12_v65 : W12 m ρ c (Proc.devRef .tc main_v65) = shapeCast S50000x1 (arg m c main_arg3) shapeCasts_S50000_S50000x1 :=
  (stretch4 (W11 m ρ c)).trans (congrArg (fun b => shapeCast S50000x1 b shapeCasts_S50000_S50000x1) (kept_at m ρ c main_arg3 (by decide)).2.2.2.2.1)
theorem W12_v64 : W12 m ρ c (Proc.devRef .tc main_v64) = feat m c :=
  (StableHlo.after_of_writes_sub hostOps4 _ hostOps4_writes (by decide)).trans (W11_v64 m ρ c)

theorem W13_v66 : W13 m ρ c (Proc.devRef .tc main_v66) = Cert.Spec.pool (F := Ideal) (feat m c) (arg m c main_arg3) := by
  refine (exitOf_arr m ρ 4 launch4 (W12 m ρ) c 2).trans <| (arr4 (V12 m ρ) c).trans ?_
  rw [show V12 m ρ c main_v65 = shapeCast S50000x1 (arg m c main_arg3) shapeCasts_S50000_S50000x1 from W12_v65 m ρ c,
    show V12 m ρ c main_v64 = feat m c from W12_v64 m ρ c]
  exact Cert.Val.pool_eq (arg m c main_arg3) (feat m c)

/-- The result: region 5 leaves the whole network of the launch arguments. -/
theorem result_eq : W14 m ρ c (Proc.devRef .tc main_v67) = net m c := by
  refine (exitOf_arr m ρ 5 launch5 (W13 m ρ) c 5).trans <| (arr5 (V13 m ρ) c).trans ?_
  rw [show V13 m ρ c main_v66 = _ from W13_v66 m ρ c,
    show V13 m ρ c main_arg8 = arg m c main_arg8 from (kept_at m ρ c main_arg8 (by decide)).2.2.2.2.2.1,
    show V13 m ρ c main_arg9 = arg m c main_arg9 from (kept_at m ρ c main_arg9 (by decide)).2.2.2.2.2.1,
    show V13 m ρ c main_arg10 = arg m c main_arg10 from (kept_at m ρ c main_arg10 (by decide)).2.2.2.2.2.1,
    show V13 m ρ c main_arg11 = arg m c main_arg11 from (kept_at m ρ c main_arg11 (by decide)).2.2.2.2.2.1]
  rfl

end Chain

end Cert.KernelIdeal.Rg

end
-- ==== Proof.Claims.lean ====
/- The five claims, assembled: each program's frame is its run read at the argument arrays; the idealization rewrote nothing;
   at the extended reals both programs end at the one network function of arguments that agree. -/
import proofs.«410560_j10393820857081_1_alg».proof.Defs
import proofs.«410560_j10393820857081_1_alg».proof.Proof.Gen.Kernel
import proofs.«410560_j10393820857081_1_alg».proof.Proof.Gen.KernelIdeal
import proofs.«410560_j10393820857081_1_alg».proof.Proof.Gen.ReferenceIdeal
import proofs.«410560_j10393820857081_1_alg».proof.Proof.Gen.Pre_finite_inputs
import proofs.«410560_j10393820857081_1_alg».proof.Proof.Ref
import proofs.«410560_j10393820857081_1_alg».proof.Proof.KI.Run
import proofs.«410560_j10393820857081_1_alg».proof.Proof.K.Run
import proofs.«410560_j10393820857081_1_alg».proof.Proof.Val.Chain
import Idealize.ShloMosaic.Adequacy
import Idealize.ShloMosaic.Init

noncomputable section

namespace Cert.Proof.Claims

open Idealize.ShloMosaic Idealize.SL.Sem

theorem frame_p : Cert.frame_Kernel := fun m ρ _ => Cert.Kernel.Rg.frame (F := Bits) m ρ

theorem frame_pi : Cert.frame_KernelIdeal := fun m ρ _ => Cert.KernelIdeal.Rg.frame (F := Ideal) m ρ

theorem frame_ri : Cert.frame_ReferenceIdeal := Cert.Ref.frame_ri

theorem preserves : Cert.preserves_Kernel_KernelIdeal := trivial

/-- The kernel's result array ends at the network of its launch arguments (the run's last boundary, read through the
    regions' values), the reference's at the network of its own; the arguments agree. -/
theorem algebraic : Cert.algebraic_KernelIdeal_ReferenceIdeal := by
  intro m ρ m' ρ' _ hagree
  refine ⟨fun c => Cert.KernelIdeal.Rg.net m c, ?_, ?_⟩
  · exact (θ_run Cert.KernelIdeal.defs _ _).mono (fun r h c =>
      ⟨(h c _ (Cert.KernelIdeal.Rg.mem_uc Cert.KernelIdeal.main_v67 (by decide))).trans (Cert.KernelIdeal.Rg.result_eq m ρ c),
        Cert.KernelIdeal.Rg.args_kept m ρ c _ (h c)⟩) (Cert.KernelIdeal.Rg.run_all (F := Ideal) m ρ)
  · refine (θ_run Cert.ReferenceIdeal.defs _ _).mono (fun r h c => ⟨(h c).1.trans ((Cert.Ref.res_eq_model m' c).trans ?_), (h c).2⟩)
      (Cert.ReferenceIdeal.Value.run (F := Ideal) m' ρ')
    obtain ⟨e0, e1, e2, e3, e4, e5, e6, e7, e8, e9, e10, e11⟩ := hagree c
    show _ = Cert.Spec.model (F := Ideal) _ _ _ _ _ _ _ _ _ _ _ _
    rw [e0, e1, e2, e3, e4, e5, e6, e7, e8, e9, e10, e11]

theorem claim_all : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof.Claims

end
-- ==== Proof.lean ====
/- A two-layer graph convolution network with a per-graph mean and a two-layer perceptron, computed by six kernel regions between
   stretches of host operations, against the same network computed by host operations alone: the claims are assembled in Claims.lean. -/
import proofs.«410560_j10393820857081_1_alg».proof.Proof.Claims

noncomputable section

namespace Cert.Proof

theorem claim : Cert.Claim := Cert.Proof.Claims.claim_all

end Cert.Proof

end
